-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_cst_19)) (v3 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_cst_19) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_cst_28) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn_part1 {F : FTy → Type} [FloatOps F] (main_arg4 : FVec F S16x1x512x512 .f32) (main_v13 : IVec S_ 1) (main_v16 : IVec S16x1x512x512 1) : IVec S_ 1 :=
  let main_c_5 : IVec S_ 1 := constantI S_ 1 1#1
  let main_v17 : IVec S_ 1 := (fun x v => Host.reduce IntOp.andi x v reducesTo_S16x1x512x512_S_d0_1_2_3 h_S_) main_v16 main_c_5
  let main_v18 : IVec S_ 1 := andi main_v13 main_v17
  let main_v19 : FVec F S16x1x512x512 .f32 := Host.absf main_arg4
  let main_cst_6 : FVec F S_ .f32 := constant S_ .f32 0x7F800000#32
  let main_v20 : FVec F S16x1x512x512 .f32 := broadcastInDim S16x1x512x512 ![] bcast_S_S16x1x512x512 main_cst_6
  let main_v21 : IVec S16x1x512x512 1 := cmpf .olt main_v19 main_v20
  let main_c_7 : IVec S_ 1 := constantI S_ 1 1#1
  let main_v22 : IVec S_ 1 := (fun x v => Host.reduce IntOp.andi x v reducesTo_S16x1x512x512_S_d0_1_2_3 h_S_) main_v21 main_c_7
  let main_v23 : IVec S_ 1 := andi main_v18 main_v22
  main_v23

def fn {F : FTy → Type} [FloatOps F] (main_arg0 : FVec F S16x1x512x512 .f32) (main_arg1 : FVec F S16x1x512x512 .f32) (main_arg2 : FVec F S16x1x512x512 .f32) (main_arg3 : FVec F S16x1x512x512 .f32) (main_arg4 : FVec F S16x1x512x512 .f32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_v14 : FVec F S16x1x512x512 .f32 := Host.absf main_arg3
  let main_cst_4 : FVec F S_ .f32 := constant S_ .f32 0x7F800000#32
  let main_v15 : FVec F S16x1x512x512 .f32 := broadcastInDim S16x1x512x512 ![] bcast_S_S16x1x512x512 main_cst_4
  let main_v16 : IVec S16x1x512x512 1 := cmpf .olt main_v14 main_v15
  fn_part1 (F := F) main_arg4 main_v13 main_v16
-- ==== Kernel.lean ====
abbrev S16x1x512x512 : Shape := ⟨4, ![16, 1, 512, 512]⟩
abbrev S16x262144 : Shape := ⟨2, ![16, 262144]⟩
abbrev S16x1 : Shape := ⟨2, ![16, 1]⟩
abbrev S16x16 : Shape := ⟨2, ![16, 16]⟩
abbrev S16x16384 : Shape := ⟨2, ![16, 16384]⟩
abbrev S16 : Shape := ⟨1, ![16]⟩
abbrev S_ : Shape := ⟨0, ![]⟩
abbrev S1x16 : Shape := ⟨2, ![1, 16]⟩

abbrev nBuf : Space → Nat
  | .hbm => 94
  | .vmem => 17
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x262144, .f32⟩
  | .hbm, ⟨6, _⟩ => ⟨S16x262144, .f32⟩
  | .hbm, ⟨7, _⟩ => ⟨S16x262144, .f32⟩
  | .hbm, ⟨8, _⟩ => ⟨S16x262144, .f32⟩
  | .hbm, ⟨9, _⟩ => ⟨S16x262144, .f32⟩
  | .hbm, ⟨10, _⟩ => ⟨S16x1, .f32⟩
  | .hbm, ⟨11, _⟩ => ⟨S16x1, .f32⟩
  | .hbm, ⟨12, _⟩ => ⟨S16x1, .f32⟩
  | .hbm, ⟨13, _⟩ => ⟨S16x1, .f32⟩
  | .hbm, ⟨14, _⟩ => ⟨S16x1, .f32⟩
  | .hbm, ⟨15, _⟩ => ⟨S16x1, .f32⟩
  | .hbm, ⟨16, _⟩ => ⟨S16x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16x16, .f32⟩
  | .hbm, ⟨52, _⟩ => ⟨S16x16, .f32⟩
  | .hbm, ⟨53, _⟩ => ⟨S16x1, .f32⟩
  | .hbm, ⟨54, _⟩ => ⟨S1x16, .f32⟩
  | .hbm, ⟨55, _⟩ => ⟨S16x16, .f32⟩
  | .hbm, ⟨56, _⟩ => ⟨S16x16, .f32⟩
  | .hbm, ⟨57, _⟩ => ⟨S16x16, .f32⟩
  | .hbm, ⟨58, _⟩ => ⟨S_, .f32⟩
  | .hbm, ⟨59, _⟩ => ⟨S16x16, .f32⟩
  | .hbm, ⟨60, _⟩ => ⟨S16x16, .f32⟩
  | .hbm, ⟨61, _⟩ => ⟨S16x16, .f32⟩
  | .hbm, ⟨62, _⟩ => ⟨S16x16, .f32⟩
  | .hbm, ⟨63, _⟩ => ⟨S_, .f32⟩
  | .hbm, ⟨64, _⟩ => ⟨S16x16, .f32⟩
  | .hbm, ⟨65, _⟩ => ⟨S16x16, .f32⟩
  | .hbm, ⟨66, _⟩ => ⟨S16x16, .f32⟩
  | .hbm, ⟨67, _⟩ => ⟨S16x16, .i32⟩
  | .hbm, ⟨68, _⟩ => ⟨S16x16, .i32⟩
  | .hbm, ⟨69, _⟩ => ⟨S_, .i32⟩
  | .hbm, ⟨70, _⟩ => ⟨S16x16, .i32⟩
  | .hbm, ⟨71, _⟩ => ⟨S16x16, .i32⟩
  | .hbm, ⟨72, _⟩ => ⟨S16x16, .i1⟩
  | .hbm, ⟨73, _⟩ => ⟨S16x16, .f32⟩
  | .hbm, ⟨74, _⟩ => ⟨S_, .f32⟩
  | .hbm, ⟨75, _⟩ => ⟨S16x16, .f32⟩
  | .hbm, ⟨76, _⟩ => ⟨S16x16, .f32⟩
  | .hbm, ⟨77, _⟩ => ⟨S16x16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S16x16384, .f32⟩
  | .local _ .vmem, ⟨5, _⟩ => ⟨S16x16384, .f32⟩
  | .local _ .vmem, ⟨6, _⟩ => ⟨S16x16384, .f32⟩
  | .local _ .vmem, ⟨7, _⟩ => ⟨S16x16384, .f32⟩
  | .local _ .vmem, ⟨8, _⟩ => ⟨S16x16384, .f32⟩
  | .local _ .vmem, ⟨9, _⟩ => ⟨S16x16384, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | .local _ .vmem, ⟨13, _⟩ => ⟨S16x1, .f32⟩
  | .local _ .vmem, ⟨14, _⟩ => ⟨S16x1, .f32⟩
  | .local _ .vmem, ⟨15, _⟩ => ⟨S16x1, .f32⟩
  | .local _ .vmem, ⟨16, _⟩ => ⟨S16x16, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_9 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_cst_17 : Ref sig .tc := ⟨.hbm, 88, rfl⟩
abbrev main_v58 : Ref sig .tc := ⟨.hbm, 89, rfl⟩
abbrev main_cst_18 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S16x1x512x512_S16x262144 : S16x1x512x512.ShapeCasts S16x262144
  inb_S16x1_S16x1_0_0 : ∀ a, (![0, 0] : Fin 2 → Nat) a + S16x1.size a ≤ S16x1.size a
  h_S16x1 : 0 < S16x1.numel
  inb_S16x16_S16x16_0_0 : ∀ a, (![0, 0] : Fin 2 → Nat) a + S16x16.size a ≤ S16x16.size a
  h_S16x16 : 0 < S16x16.numel
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  shapeCasts_S16x1_S16x1 : S16x1.ShapeCasts S16x1
  reduces_S16x16384_S16 : S16x16384.Reduces [1] S16
  shapeCasts_S16_S16x1 : S16.ShapeCasts S16x1
  bitsLt_bf16_f32 : FTy.bits .bf16 < FTy.bits .f32
  shapeCasts_S16x16_S16x16 : S16x16.ShapeCasts S16x16
  reducesTo_S16x1_S_d0_1 : S16x1.ReducesTo [0, 1] S_
  h_S_ : 0 < S_.numel
  shapeCasts_S16x1_S16 : S16x1.ShapeCasts S16
  bcast_S_S16 : S_.BroadcastsInDim S16 (![] : Fin 0 → Fin S16.rank)
  bcast_S_S16x16 : S_.BroadcastsInDim S16x16 (![] : Fin 0 → Fin S16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d1 : S16x16.ReducesTo [1] S16
  reducesTo_S16_S_d0 : S16.ReducesTo [0] S_
  dot_S16x16384_S16x16384_S16x16_1_1_0_0_n_n_wf : DotDims.WF S16x16384 S16x16384 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S16x262144.size a
  hwx0_0 : ∀ i : grid0.Coords, EltTy.bits .f32 = 32 ∨ (Rect.block (s := S16x262144) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S16x262144.size a
  hwx0_1 : ∀ i : grid0.Coords, EltTy.bits .f32 = 32 ∨ (Rect.block (s := S16x262144) S16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16384.size a ≤ S16x262144.size a
  hwx0_2 : ∀ i : grid0.Coords, EltTy.bits .f32 = 32 ∨ (Rect.block (s := S16x262144) S16x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x16384.size a ≤ S16x262144.size a
  hwx0_3 : ∀ i : grid0.Coords, EltTy.bits .f32 = 32 ∨ (Rect.block (s := S16x262144) S16x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x16384.size a ≤ S16x262144.size a
  hwx0_4 : ∀ i : grid0.Coords, EltTy.bits .f32 = 32 ∨ (Rect.block (s := S16x262144) S16x16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S16x1.size a
  hwx0_9 : ∀ i : grid0.Coords, EltTy.bits .f32 = 32 ∨ (Rect.block (s := S16x1) S16x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x16.size a ≤ S16x16.size a
  hwx0_11 : ∀ i : grid0.Coords, EltTy.bits .f32 = 32 ∨ (Rect.block (s := S16x16) S16x16.size (cc0_transform_11 i) (hinb0_11 i)).WholeWords (EltTy.packing .f32)

variable [Facts₀]

def dot_S16x16384_S16x16384_S16x16_1_1_0_0_n_n : DotDims S16x16384 S16x16384 S16x16 where
  lhsContracting := [1]
  rhsContracting := [1]
  lhsNonContracting := [0]
  rhsNonContracting := [0]
  lhsBatch := []
  rhsBatch := []
  wf := dot_S16x16384_S16x16384_S16x16_1_1_0_0_n_n_wf

abbrev win0_0 : Pipeline.Window sig grid0 :=
  Pipeline.Window.ofSpec (Memref.whole main_v0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S16x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S16x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S16x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S16x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5_4) S16x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_5) S16x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5_6) S16x16.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x1x512x512 : Shape := ⟨4, ![16, 1, 512, 512]⟩
abbrev S_ : Shape := ⟨0, ![]⟩
abbrev S4194304 : Shape := ⟨1, ![4194304]⟩
abbrev S16 : Shape := ⟨1, ![16]⟩
abbrev S16x262144 : Shape := ⟨2, ![16, 262144]⟩
abbrev S262144x16 : Shape := ⟨2, ![262144, 16]⟩
abbrev S16x16 : Shape := ⟨2, ![16, 16]⟩
abbrev S16x1 : Shape := ⟨2, ![16, 1]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x1x512x512, .f32⟩
  | .hbm, ⟨6, _⟩ => ⟨S16x1x512x512, .f32⟩
  | .hbm, ⟨7, _⟩ => ⟨S_, .f32⟩
  | .hbm, ⟨8, _⟩ => ⟨S16x1x512x512, .f32⟩
  | .hbm, ⟨9, _⟩ => ⟨S16x1x512x512, .f32⟩
  | .hbm, ⟨10, _⟩ => ⟨S_, .f32⟩
  | .hbm, ⟨11, _⟩ => ⟨S16x1x512x512, .f32⟩
  | .hbm, ⟨12, _⟩ => ⟨S16x1x512x512, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x1x512x512, .f32⟩
  | .hbm, ⟨33, _⟩ => ⟨S16x1x512x512, .f32⟩
  | .hbm, ⟨34, _⟩ => ⟨S_, .f32⟩
  | .hbm, ⟨35, _⟩ => ⟨S16x1x512x512, .f32⟩
  | .hbm, ⟨36, _⟩ => ⟨S16x1x512x512, .f32⟩
  | .hbm, ⟨37, _⟩ => ⟨S_, .f32⟩
  | .hbm, ⟨38, _⟩ => ⟨S16x1x512x512, .f32⟩
  | .hbm, ⟨39, _⟩ => ⟨S16x1x512x512, .f32⟩
  | .hbm, ⟨40, _⟩ => ⟨S16x1x512x512, .f32⟩
  | .hbm, ⟨41, _⟩ => ⟨S16x1x512x512, .f32⟩
  | .hbm, ⟨42, _⟩ => ⟨S_, .f32⟩
  | .hbm, ⟨43, _⟩ => ⟨S16x1x512x512, .f32⟩
  | .hbm, ⟨44, _⟩ => ⟨S16x1x512x512, .f32⟩
  | .hbm, ⟨45, _⟩ => ⟨S_, .f32⟩
  | .hbm, ⟨46, _⟩ => ⟨S16x1x512x512, .f32⟩
  | .hbm, ⟨47, _⟩ => ⟨S16x1x512x512, .f32⟩
  | .hbm, ⟨48, _⟩ => ⟨S16x1x512x512, .f32⟩
  | .hbm, ⟨49, _⟩ => ⟨S16x1x512x512, .f32⟩
  | .hbm, ⟨50, _⟩ => ⟨S16x1x512x512, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S16x262144, .f32⟩
  | .hbm, ⟨62, _⟩ => ⟨S16x262144, .f32⟩
  | .hbm, ⟨63, _⟩ => ⟨S16x262144, .f32⟩
  | .hbm, ⟨64, _⟩ => ⟨S_, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16x262144, .f32⟩
  | .hbm, ⟨70, _⟩ => ⟨S_, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S262144x16, .f32⟩
  | .hbm, ⟨76, _⟩ => ⟨S16x16, .f32⟩
  | .hbm, ⟨77, _⟩ => ⟨S_, .f32⟩
  | .hbm, ⟨78, _⟩ => ⟨S16x16, .f32⟩
  | .hbm, ⟨79, _⟩ => ⟨S16x16, .f32⟩
  | .hbm, ⟨80, _⟩ => ⟨S16x1, .f32⟩
  | .hbm, ⟨81, _⟩ => ⟨S1x16, .f32⟩
  | .hbm, ⟨82, _⟩ => ⟨S16x16, .f32⟩
  | .hbm, ⟨83, _⟩ => ⟨S16x16, .f32⟩
  | .hbm, ⟨84, _⟩ => ⟨S16x16, .f32⟩
  | .hbm, ⟨85, _⟩ => ⟨S_, .f32⟩
  | .hbm, ⟨86, _⟩ => ⟨S16x16, .f32⟩
  | .hbm, ⟨87, _⟩ => ⟨S16x16, .f32⟩
  | .hbm, ⟨88, _⟩ => ⟨S16x16, .f32⟩
  | .hbm, ⟨89, _⟩ => ⟨S16x16, .f32⟩
  | .hbm, ⟨90, _⟩ => ⟨S_, .f32⟩
  | .hbm, ⟨91, _⟩ => ⟨S16x16, .f32⟩
  | .hbm, ⟨92, _⟩ => ⟨S16x16, .f32⟩
  | .hbm, ⟨93, _⟩ => ⟨S16x16, .f32⟩
  | .hbm, ⟨94, _⟩ => ⟨S16x16, .i32⟩
  | .hbm, ⟨95, _⟩ => ⟨S16x16, .i32⟩
  | .hbm, ⟨96, _⟩ => ⟨S_, .i32⟩
  | .hbm, ⟨97, _⟩ => ⟨S16x16, .i32⟩
  | .hbm, ⟨98, _⟩ => ⟨S16x16, .i32⟩
  | .hbm, ⟨99, _⟩ => ⟨S16x16, .i1⟩
  | .hbm, ⟨100, _⟩ => ⟨S16x16, .f32⟩
  | .hbm, ⟨101, _⟩ => ⟨S_, .f32⟩
  | .hbm, ⟨102, _⟩ => ⟨S16x16, .f32⟩
  | .hbm, ⟨103, _⟩ => ⟨S16x16, .f32⟩
  | .hbm, ⟨104, _⟩ => ⟨S16x16, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S16, .f32⟩
  | .hbm, ⟨109, _⟩ => ⟨S16, .f32⟩
  | .hbm, ⟨110, _⟩ => ⟨S16, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_12 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_14 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_15 : Ref sig .tc := ⟨.hbm, 64, rfl⟩
abbrev main_v43 : Ref sig .tc := ⟨.hbm, 65, rfl⟩
abbrev main_cst_16 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_17 : Ref sig .tc := ⟨.hbm, 70, rfl⟩
abbrev main_v47 : Ref sig .tc := ⟨.hbm, 71, rfl⟩
abbrev main_cst_18 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_19 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_20 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_24 : Ref sig .tc := ⟨.hbm, 111, rfl⟩
abbrev main_v80 : Ref sig .tc := ⟨.hbm, 112, rfl⟩
abbrev main_cst_25 : Ref sig .tc := ⟨.hbm, 113, rfl⟩
abbrev main_v81 : Ref sig .tc := ⟨.hbm, 114, rfl⟩
abbrev main_cst_26 : Ref sig .tc := ⟨.hbm, 115, rfl⟩
abbrev main_v82 : Ref sig .tc := ⟨.hbm, 116, rfl⟩
abbrev main_cst_27 : Ref sig .tc := ⟨.hbm, 117, rfl⟩
abbrev main_v83 : Ref sig .tc := ⟨.hbm, 118, rfl⟩
abbrev main_v84 : Ref sig .tc := ⟨.hbm, 119, rfl⟩
abbrev main_cst_28 : Ref sig .tc := ⟨.hbm, 120, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  shapeCasts_S16x1x512x512_S4194304 : S16x1x512x512.ShapeCasts S4194304
  reducesTo_S4194304_S_d0 : S4194304.ReducesTo [0] S_
  h_S_ : 0 < S_.numel
  reducesTo_S16x1x512x512_S16_d1_2_3 : S16x1x512x512.ReducesTo [1, 2, 3] S16
  bcast_S_S16 : S_.BroadcastsInDim S16 (![] : Fin 0 → Fin S16.rank)
  shapeCasts_S16x1x512x512_S16x262144 : S16x1x512x512.ShapeCasts S16x262144
  reducesTo_S16x262144_S16_d1 : S16x262144.ReducesTo [1] S16
  transposes_S16x262144_S262144x16_1_0 : S16x262144.Transposes [1, 0] S262144x16
  bcast_S_S16x16 : S_.BroadcastsInDim S16x16 (![] : Fin 0 → Fin S16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  reducesTo_S16x16_S16_d1 : S16x16.ReducesTo [1] S16
  reducesTo_S16_S_d0 : S16.ReducesTo [0] S_
  dot_S16x262144_S262144x16_S16x16_1_0_0_1_n_n_wf : DotDims.WF S16x262144 S262144x16 S16x16 [1] [0] [0] [1] [] []

variable [Facts₀]

def dot_S16x262144_S262144x16_S16x16_1_0_0_1_n_n : DotDims S16x262144 S262144x16 S16x16 where
  lhsContracting := [1]
  rhsContracting := [0]
  lhsNonContracting := [0]
  rhsNonContracting := [1]
  lhsBatch := []
  rhsBatch := []
  wf := dot_S16x262144_S262144x16_S16x16_1_0_0_1_n_n_wf

class Facts : Prop extends Facts₀ where

variable [Facts]
-- ==== Proof.KernelIdeal.Kit.lean ====
import proofs.«128507_j77738908057903_1_alg».proof.Proof.Gen.KernelIdeal.Launch
import proofs.«128507_j77738908057903_1_alg».proof.Proof.Gen.KernelIdeal.Skeleton
import proofs.«128507_j77738908057903_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The contents at the region's entry: the launch memory after the five reshapes.
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 40000000 in
theorem hostOps1_fresh : (hostOps1 : List (HloOp τ sig (Elt F))).Forall fun op => op.fresh = ∅ := by
  simp only [List.Forall]; repeat' constructor

-- @main is the reshapes, the region, and the operations that follow it.
set_option maxHeartbeats 40000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

set_option maxHeartbeats 40000000 in
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
set_option maxHeartbeats 40000000 in
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
set_option maxHeartbeats 40000000 in
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne ((by decide : ∀ w, Pipeline.arrRef spec0 w ≠ _) w)
set_option maxHeartbeats 40000000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

-- The five argument arrays. No host operation writes one, and none is an array of the region.
abbrev args : List (Ref sig .tc) := [main_arg0, main_arg1, main_arg2, main_arg3, main_arg4]

theorem ops0_keep : ∀ b ∈ args, (List.flatten [hostOps0] : List (HloOp τ sig (Elt F))).Forall fun op => Proc.devRef .tc b ∉ op.writes := by
  intro b hb
  simp only [args, List.mem_cons, List.mem_nil_iff, or_false] at hb
  rcases hb with rfl | rfl | rfl | rfl | rfl <;>
  (simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

set_option maxHeartbeats 40000000 in
theorem ops1_keep : ∀ b ∈ args, (List.flatten [hostOps1] : List (HloOp τ sig (Elt F))).Forall fun op => Proc.devRef .tc b ∉ op.writes := by
  intro b hb
  simp only [args, List.mem_cons, List.mem_nil_iff, or_false] at hb
  rcases hb with rfl | rfl | rfl | rfl | rfl <;>
  (simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

theorem arr_ne : ∀ b ∈ args, ∀ w, Pipeline.arrRef spec0 w ≠ b := by decide

-- So an argument array is as at the launch when the region is entered, and still after the operations that follow it.
theorem V_arg (c : Dev nD) {b : Ref sig .tc} (hb : b ∈ args) : V m c b = m ((c : Thread nD τ).loc b) :=
  StableHlo.after_of_forall_not_mem (b := Proc.devRef .tc b) _ _ (List.forall_iff_forall_mem.mp (ops0_keep b hb))

set_option maxHeartbeats 40000000 in
theorem W_arg (dats : (p : Fin _) → (c : Dev nD) → Dat τ (Elt F) Unit ℕ (UR sig nD τ) ℕ (cfgs p) c) (c : Dev nD) {b : Ref sig .tc} (hb : b ∈ args) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (ops1_keep b hb)),
    Pipeline.withArrays_of_ne _ c (V0 m c) _ b (arr_ne b hb)]
  exact V_arg m c hb

-- Window w's block at grid point t, read off its array as the region finds it.
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

-- Where a frame run ends, each argument array is as at the launch: it is none of the region's arrays and no host operation writes it.
set_option maxHeartbeats 40000000 in
theorem args_kept (dats : (p : Fin 1) → (c : Dev nD) → Dat τ (Elt F) Unit ℕ (UR sig nD τ) ℕ (cfgs p) c) {r}
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_arg m dats c (by decide)),
    ((h c).2 main_arg1 (Pipeline.mem_restRefs_of main_arg1 (by decide) (by decide))).trans (W_arg m dats c (by decide)),
    ((h c).2 main_arg2 (Pipeline.mem_restRefs_of main_arg2 (by decide) (by decide))).trans (W_arg m dats c (by decide)),
    ((h c).2 main_arg3 (Pipeline.mem_restRefs_of main_arg3 (by decide) (by decide))).trans (W_arg m dats c (by decide)),
    ((h c).2 main_arg4 (Pipeline.mem_restRefs_of main_arg4 (by decide) (by decide))).trans (W_arg m dats c (by decide))⟩

set_option maxHeartbeats 40000000 in
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => args_kept m dats h c) h

-- The body's one branch condition, "this is the first grid point".
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

abbrev VO0_5 : View sig .tc .vmem S16x1 .f32 := (Memref.whole cc0_stg5_0 : Memref sig .tc .vmem S16x1 .f32).view
abbrev VO0_6 : View sig .tc .vmem S16x1 .f32 := (Memref.whole cc0_stg6_0 : Memref sig .tc .vmem S16x1 .f32).view
abbrev VO0_7 : View sig .tc .vmem S16x1 .f32 := (Memref.whole cc0_stg7_0 : Memref sig .tc .vmem S16x1 .f32).view
abbrev VO0_8 : View sig .tc .vmem S16x1 .f32 := (Memref.whole cc0_stg8_0 : Memref sig .tc .vmem S16x1 .f32).view
abbrev VO0_9 : View sig .tc .vmem S16x1 .f32 := (Memref.whole cc0_stg9_0 : Memref sig .tc .vmem S16x1 .f32).view
abbrev VO0_10 : View sig .tc .vmem S16x1 .f32 := (Memref.whole cc0_stg10_0 : Memref sig .tc .vmem S16x1 .f32).view
abbrev VO0_11 : View sig .tc .vmem S16x16 .f32 := (Memref.whole cc0_stg11_0 : Memref sig .tc .vmem S16x16 .f32).view
abbrev ms0_0 (t : Fin cfg0.N) : Memref sig .tc .vmem S16x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x16384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x16384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x16 .f32 := win0_11.stage (cfg0.slots t 11)
abbrev hs0_11 (t : Fin cfg0.N) : (ms0_11 t).IsWhole := hstage0_11 ((cfg0.slots t 11).cast nbuf0_11)

end Cert.KernelIdeal.Fr

end
-- ==== Proof.KernelIdeal.RunA.lean ====
import proofs.«128507_j77738908057903_1_alg».proof.Proof.KernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The body run whole at the first grid point: it ends, keeps its five input tiles, and writes each accumulator a list of pieces, which the run finds.
set_option maxHeartbeats 8000000 in
noncomputable def kernelRun0_A (c : Dev nD) (i : grid0.Coords) (arg1 : Memref sig .tc .vmem S16x16384 .f32) (harg1 : arg1.IsWhole) (arg2 : Memref sig .tc .vmem S16x16384 .f32) (harg2 : arg2.IsWhole) (arg3 : Memref sig .tc .vmem S16x16384 .f32) (harg3 : arg3.IsWhole) (arg4 : Memref sig .tc .vmem S16x16384 .f32) (harg4 : arg4.IsWhole) (arg5 : Memref sig .tc .vmem S16x16384 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x16 .f32) (harg12 : arg12.IsWhole) (hc0 : cond0_0 i)
    (x0 x1 x2 x3 x4 : Vec F S16x16384 .f32) :
    Σ' (L5 : List (View.Piece (Elt F) S16x1 .f32)) (L6 : List (View.Piece (Elt F) S16x1 .f32)) (L7 : List (View.Piece (Elt F) S16x1 .f32)) (L8 : List (View.Piece (Elt F) S16x1 .f32)) (L9 : List (View.Piece (Elt F) S16x1 .f32)) (L10 : List (View.Piece (Elt F) S16x1 .f32)), { L11 : List (View.Piece (Elt F) S16x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Fr

end
-- ==== Proof.KernelIdeal.RunB.lean ====
import proofs.«128507_j77738908057903_1_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The body run whole at a later grid point, from given accumulator values.
set_option maxHeartbeats 8000000 in
noncomputable def kernelRun0_B (c : Dev nD) (i : grid0.Coords) (arg1 : Memref sig .tc .vmem S16x16384 .f32) (harg1 : arg1.IsWhole) (arg2 : Memref sig .tc .vmem S16x16384 .f32) (harg2 : arg2.IsWhole) (arg3 : Memref sig .tc .vmem S16x16384 .f32) (harg3 : arg3.IsWhole) (arg4 : Memref sig .tc .vmem S16x16384 .f32) (harg4 : arg4.IsWhole) (arg5 : Memref sig .tc .vmem S16x16384 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x16 .f32) (harg12 : arg12.IsWhole) (hc0 : ¬cond0_0 i)
    (x0 x1 x2 x3 x4 : Vec F S16x16384 .f32) (xo5 xo6 xo7 xo8 xo9 xo10 : Vec F S16x1 .f32) (xo11 : Vec F S16x16 .f32) :
    Σ' (L5 : List (View.Piece (Elt F) S16x1 .f32)) (L6 : List (View.Piece (Elt F) S16x1 .f32)) (L7 : List (View.Piece (Elt F) S16x1 .f32)) (L8 : List (View.Piece (Elt F) S16x1 .f32)) (L9 : List (View.Piece (Elt F) S16x1 .f32)) (L10 : List (View.Piece (Elt F) S16x1 .f32)), { L11 : List (View.Piece (Elt F) S16x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Fr

end
-- ==== Proof.KernelIdeal.Frame.lean ====
import proofs.«128507_j77738908057903_1_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Acc : Type :=
  Vec F S16x1 .f32 × Vec F S16x1 .f32 × Vec F S16x1 .f32 × Vec F S16x1 .f32 × Vec F S16x1 .f32 × Vec F S16x1 .f32 × Vec F S16x16 .f32

section
variable (c : Dev nD) (i : grid0.Coords) (arg1 : Memref sig .tc .vmem S16x16384 .f32) (harg1 : arg1.IsWhole) (arg2 : Memref sig .tc .vmem S16x16384 .f32) (harg2 : arg2.IsWhole)
  (arg3 : Memref sig .tc .vmem S16x16384 .f32) (harg3 : arg3.IsWhole) (arg4 : Memref sig .tc .vmem S16x16384 .f32) (harg4 : arg4.IsWhole)
  (arg5 : Memref sig .tc .vmem S16x16384 .f32) (harg5 : arg5.IsWhole) (arg6 : Memref sig .tc .vmem S16x1 .f32) (harg6 : arg6.IsWhole)
  (arg7 : Memref sig .tc .vmem S16x1 .f32) (harg7 : arg7.IsWhole) (arg8 : Memref sig .tc .vmem S16x1 .f32) (harg8 : arg8.IsWhole)
  (arg9 : Memref sig .tc .vmem S16x1 .f32) (harg9 : arg9.IsWhole) (arg10 : Memref sig .tc .vmem S16x1 .f32) (harg10 : arg10.IsWhole)
  (arg11 : Memref sig .tc .vmem S16x1 .f32) (harg11 : arg11.IsWhole) (arg12 : Memref sig .tc .vmem S16x16 .f32) (harg12 : arg12.IsWhole)

section
variable (hc0 : cond0_0 i) (x0 x1 x2 x3 x4 : Vec F S16x16384 .f32)

-- The pieces the first point's run writes for an accumulator tile its index set, so they cover it.
theorem cover0_A_5 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL _ S16x1.size (by sl_kernel_rfl) y
theorem cover0_A_6 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL _ S16x1.size (by sl_kernel_rfl) y
theorem cover0_A_7 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL _ S16x1.size (by sl_kernel_rfl) y
theorem cover0_A_8 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL _ S16x1.size (by sl_kernel_rfl) y
theorem cover0_A_9 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1, y ∈ pc.1.set :=
  View.cover_of_tiledL _ S16x1.size (by sl_kernel_rfl) y
theorem cover0_A_10 (y : S16x1.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.1, y ∈ pc.1.set :=
  View.cover_of_tiledL _ S16x1.size (by sl_kernel_rfl) y
theorem cover0_A_11 (y : S16x16.Idx) : ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.2.2.1, y ∈ pc.1.set :=
  View.cover_of_tiledL _ S16x16.size (by sl_kernel_rfl) y

-- The seven accumulators after the first point's run: its written pieces read back.
def outA : Acc (F := F) :=
  let R := kernelRun0_A c i arg1 harg1 arg2 harg2 arg3 harg3 arg4 harg4 arg5 harg5 arg6 harg6 arg7 harg7 arg8 harg8 arg9 harg9 arg10 harg10 arg11 harg11 arg12 harg12 hc0 x0 x1 x2 x3 x4
  (VO0_5.read (Elt F) (VO0_5.writes (Elt F) VO0_5.junk R.1),
   VO0_6.read (Elt F) (VO0_6.writes (Elt F) VO0_6.junk R.2.1),
   VO0_7.read (Elt F) (VO0_7.writes (Elt F) VO0_7.junk R.2.2.1),
   VO0_8.read (Elt F) (VO0_8.writes (Elt F) VO0_8.junk R.2.2.2.1),
   VO0_9.read (Elt F) (VO0_9.writes (Elt F) VO0_9.junk R.2.2.2.2.1),
   VO0_10.read (Elt F) (VO0_10.writes (Elt F) VO0_10.junk R.2.2.2.2.2.1),
   VO0_11.read (Elt F) (VO0_11.writes (Elt F) VO0_11.junk R.2.2.2.2.2.2.1))
end

section
variable (hc0 : ¬cond0_0 i) (x0 x1 x2 x3 x4 : Vec F S16x16384 .f32) (xo5 xo6 xo7 xo8 xo9 xo10 : Vec F S16x1 .f32) (xo11 : Vec F S16x16 .f32)

-- The same for a later point's run, which starts from the accumulator values xo5 … xo11.
theorem cover0_B_5 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).1, y ∈ pc.1.set :=
  View.cover_of_tiledL _ S16x1.size (by sl_kernel_rfl) y
theorem cover0_B_6 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.1, y ∈ pc.1.set :=
  View.cover_of_tiledL _ S16x1.size (by sl_kernel_rfl) y
theorem cover0_B_7 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.2.1, y ∈ pc.1.set :=
  View.cover_of_tiledL _ S16x1.size (by sl_kernel_rfl) y
theorem cover0_B_8 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.2.2.1, y ∈ pc.1.set :=
  View.cover_of_tiledL _ S16x1.size (by sl_kernel_rfl) y
theorem cover0_B_9 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.2.2.2.1, y ∈ pc.1.set :=
  View.cover_of_tiledL _ S16x1.size (by sl_kernel_rfl) y
theorem cover0_B_10 (y : S16x1.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.2.2.2.2.1, y ∈ pc.1.set :=
  View.cover_of_tiledL _ S16x1.size (by sl_kernel_rfl) y
theorem cover0_B_11 (y : S16x16.Idx) : ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11).2.2.2.2.2.2.1, y ∈ pc.1.set :=
  View.cover_of_tiledL _ S16x16.size (by sl_kernel_rfl) y

def outB : Acc (F := F) :=
  let R := kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11
  (VO0_5.read (Elt F) (VO0_5.writes (Elt F) VO0_5.junk R.1),
   VO0_6.read (Elt F) (VO0_6.writes (Elt F) VO0_6.junk R.2.1),
   VO0_7.read (Elt F) (VO0_7.writes (Elt F) VO0_7.junk R.2.2.1),
   VO0_8.read (Elt F) (VO0_8.writes (Elt F) VO0_8.junk R.2.2.2.1),
   VO0_9.read (Elt F) (VO0_9.writes (Elt F) VO0_9.junk R.2.2.2.2.1),
   VO0_10.read (Elt F) (VO0_10.writes (Elt F) VO0_10.junk R.2.2.2.2.2.1),
   VO0_11.read (Elt F) (VO0_11.writes (Elt F) VO0_11.junk R.2.2.2.2.2.2.1))
end
end

-- The two runs at grid point t, on that point's input tiles; a later point also takes the accumulators the point before left.
def outA_at (c : Dev nD) (t : Fin cfg0.N) (h0 : t.val % 16 = 0) : Acc (F := F) :=
  outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t)

def outB_at (c : Dev nD) (t : Fin cfg0.N) (h0 : ¬t.val % 16 = 0) (p : Acc (F := F)) : Acc (F := F) :=
  outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) p.1 p.2.1 p.2.2.1 p.2.2.2.1 p.2.2.2.2.1 p.2.2.2.2.2.1 p.2.2.2.2.2.2

-- The accumulators after each grid point, by recursion on the point.
def outsAt0 (c : Dev nD) : (n : ℕ) → n < cfg0.N → Acc (F := F)
  | 0, hn => outA_at m c ⟨0, hn⟩ (Nat.zero_mod _)
  | n + 1, hn =>
    if h0 : (n + 1) % 16 = 0 then outA_at m c ⟨n + 1, hn⟩ h0
    else outB_at m c ⟨n + 1, hn⟩ h0 (outsAt0 c n (Nat.lt_of_succ_lt hn))

theorem outsAt0_A (c : Dev nD) (t : Fin cfg0.N) (h0 : t.val % 16 = 0) : outsAt0 m c t.val t.isLt = outA_at m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = outB_at m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

-- The region's proof data: each input's block at every point, each accumulator at `outsAt0`.
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
    | ⟨11, _⟩ => (outsAt0 m c t.val t.isLt).2.2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]
theorem after0_11 (c : Dev nD) (t : Fin cfg0.N) : (dats m 0 c).after 11 t = (outsAt0 m c t.val t.isLt).2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

-- At a later point an accumulator enters the body as the point before left it.
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

theorem before0_6_B (c : Dev nD) (t : Fin cfg0.N) (h0 : ¬t.val % 16 = 0) (d) :
    (dats m 0 c).before 6 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

theorem before0_8_B (c : Dev nD) (t : Fin cfg0.N) (h0 : ¬t.val % 16 = 0) (d) :
    (dats m 0 c).before 8 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

theorem before0_11_B (c : Dev nD) (t : Fin cfg0.N) (h0 : ¬t.val % 16 = 0) (d) :
    (dats m 0 c).before 11 t d = (outsAt0 m c (t.val - 1) (Nat.lt_of_le_of_lt (Nat.sub_le _ _) t.isLt)).2.2.2.2.2.2 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

-- The body at any point: the first point's run or a later point's applies, and what it leaves is `outsAt0` there.
set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  have hN : t.val < 16 := lt_of_lt_of_eq t.isLt (show cfg0.N = 16 from N_0)
  by_cases h0 : t.val % 16 = 0
  · rw [outsAt0_A m c t h0]
    unfold outA_at outA
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _)
  · rw [outsAt0_B m c t h0]
    simp only [before0_5_B m c t h0, before0_6_B m c t h0, before0_7_B m c t h0, before0_8_B m c t h0, before0_9_B m c t h0, before0_10_B m c t h0, before0_11_B m c t h0]
    unfold outB_at outB
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ _ _ _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover0_B_11 c _ _ _ _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

-- Every weakly fair execution of @main ends with the region's arrays at the proof data's contents.
set_option maxHeartbeats 40000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

set_option maxHeartbeats 40000000 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KernelIdeal.CaseValues.lean ====
import proofs.«128507_j77738908057903_1_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

-- One grid point's update of the seven accumulators from its five input tiles: the body's seven store payloads.
def step (x0 x1 x2 x3 x4 : Vec F S16x16384 .f32) (p : Acc (F := F)) : Acc (F := F) :=
  (k0_pay13 x0 p.1, k0_pay14 x1 p.2.1, k0_pay17 (k0_pay15 p.2.2.1) (k0_pay16 x0 x1), k0_pay19 (k0_pay10 x2) p.2.2.2.1,
   k0_pay20 (k0_pay11 x3) p.2.2.2.2.1, k0_pay18 (k0_pay10 x2) (k0_pay11 x3) (k0_pay12 x4) p.2.2.2.2.2.1,
   k0_pay21 (k0_pay10 x2) (k0_pay11 x3) p.2.2.2.2.2.2)

section
variable (c : Dev nD) (i : grid0.Coords) (arg1 : Memref sig .tc .vmem S16x16384 .f32) (harg1 : arg1.IsWhole) (arg2 : Memref sig .tc .vmem S16x16384 .f32) (harg2 : arg2.IsWhole)
  (arg3 : Memref sig .tc .vmem S16x16384 .f32) (harg3 : arg3.IsWhole) (arg4 : Memref sig .tc .vmem S16x16384 .f32) (harg4 : arg4.IsWhole)
  (arg5 : Memref sig .tc .vmem S16x16384 .f32) (harg5 : arg5.IsWhole) (arg6 : Memref sig .tc .vmem S16x1 .f32) (harg6 : arg6.IsWhole)
  (arg7 : Memref sig .tc .vmem S16x1 .f32) (harg7 : arg7.IsWhole) (arg8 : Memref sig .tc .vmem S16x1 .f32) (harg8 : arg8.IsWhole)
  (arg9 : Memref sig .tc .vmem S16x1 .f32) (harg9 : arg9.IsWhole) (arg10 : Memref sig .tc .vmem S16x1 .f32) (harg10 : arg10.IsWhole)
  (arg11 : Memref sig .tc .vmem S16x1 .f32) (harg11 : arg11.IsWhole) (arg12 : Memref sig .tc .vmem S16x16 .f32) (harg12 : arg12.IsWhole)

-- A later point's run leaves the step of what it found: each accumulator's one covering piece is that store's payload.
set_option maxHeartbeats 4000000 in
theorem outB_eq (hc0 : ¬cond0_0 i) (x0 x1 x2 x3 x4 : Vec F S16x16384 .f32) (xo5 xo6 xo7 xo8 xo9 xo10 : Vec F S16x1 .f32) (xo11 : Vec F S16x16 .f32) :
    outB c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11 = step x0 x1 x2 x3 x4 (xo5, xo6, xo7, xo8, xo9, xo10, xo11) := by
  unfold outB step
  simp only [View.read_writes_eq_canon VO0_5 _ _ (cover0_B_5 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_6 _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_7 _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_8 _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_9 _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_10 _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11),
    View.read_writes_eq_canon VO0_11 _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 xo5 xo6 xo7 xo8 xo9 xo10 xo11)]
  unfold kernelRun0_B
  dsimp only
  sl_unfold_words
  simp only [View.canon_unit_zero (S := S16x1) hz, View.canon_unit_zero (S := S16x16) hz, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S16x16384) hz, View.ld_unit_zero (S := S16x1) hz, View.ld_unit_zero (S := S16x16) hz]

-- The first point's run leaves the step of the seven zero payloads.
set_option maxHeartbeats 4000000 in
theorem outA_eq (hc0 : cond0_0 i) (x0 x1 x2 x3 x4 : Vec F S16x16384 .f32) :
    outA c i arg1 harg1 arg2 harg2 arg3 harg3 arg4 harg4 arg5 harg5 arg6 harg6 arg7 harg7 arg8 harg8 arg9 harg9 arg10 harg10 arg11 harg11 arg12 harg12 hc0 x0 x1 x2 x3 x4 = step x0 x1 x2 x3 x4 (k0_pay1, k0_pay2, k0_pay3, k0_pay4, k0_pay5, k0_pay6, k0_pay7) := by
  unfold outA step
  simp only [View.read_writes_eq_canon VO0_5 _ _ (cover0_A_5 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_6 _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_7 _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_8 _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_9 _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_10 _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4),
    View.read_writes_eq_canon VO0_11 _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.canon_cons_unit_zero (S := S16x1) hz, View.readCov_unit_zero (S := S16x1) _ hz, View.canon_cons_unit_zero (S := S16x16) hz, View.readCov_unit_zero (S := S16x16) _ hz, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S16x16384) hz, View.ld_unit_zero (S := S16x1) hz, View.ld_unit_zero (S := S16x16) hz]
end

theorem not_first (n : ℕ) (h : n + 1 < cfg0.N) : ¬(⟨n + 1, h⟩ : Fin cfg0.N).val % 16 = 0 := by
  have hN : cfg0.N = 16 := N_0
  dsimp only; omega

-- The accumulators follow one recursion: the step of the zero payloads at the first point, then the step of the previous values.
theorem outs_zero (c : Dev nD) (h : 0 < cfg0.N) :
    outsAt0 m c 0 h = step (iblk m c 0 ⟨0, h⟩) (iblk m c 1 ⟨0, h⟩) (iblk m c 2 ⟨0, h⟩) (iblk m c 3 ⟨0, h⟩) (iblk m c 4 ⟨0, h⟩) (k0_pay1, k0_pay2, k0_pay3, k0_pay4, k0_pay5, k0_pay6, k0_pay7) := by
  refine (outsAt0_A m c ⟨0, h⟩ rfl).trans ?_
  unfold outA_at
  exact outA_eq ..

theorem outs_succ (c : Dev nD) (n : ℕ) (h : n + 1 < cfg0.N) :
    outsAt0 m c (n + 1) h = step (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)) := by
  refine (outsAt0_B m c ⟨n + 1, h⟩ (not_first n h)).trans ?_
  unfold outB_at
  exact (outB_eq ..).trans rfl

end Cert.KernelIdeal.Fr

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A4 : Shape := ⟨4, ![16, 1, 512, 512]⟩
abbrev R2 : Shape := ⟨2, ![16, 262144]⟩
abbrev C1 : Shape := ⟨2, ![16, 1]⟩
abbrev R1 : Shape := ⟨2, ![1, 16]⟩
abbrev V16 : Shape := ⟨1, ![16]⟩
abbrev M16 : Shape := ⟨2, ![16, 16]⟩
abbrev Sc : Shape := ⟨0, ![]⟩

theorem hSc : 0 < Sc.numel := by decide
theorem red_C1_Sc : C1.ReducesTo [0, 1] Sc := by decide
theorem red_M16_V16 : M16.ReducesTo [1] V16 := by decide
theorem red_V16_Sc : V16.ReducesTo [0] Sc := by decide
theorem cast_C1_V16 : C1.ShapeCasts V16 := by decide
theorem bc_Sc_V16 : Sc.BroadcastsInDim V16 (![] : Fin 0 → Fin V16.rank) := by decide
theorem bc_Sc_M16 : Sc.BroadcastsInDim M16 (![] : Fin 0 → Fin M16.rank) := by decide
theorem bc_V16_C1 : V16.BroadcastsInDim C1 (![0] : Fin 1 → Fin C1.rank) := by decide
theorem bc_V16_R1 : V16.BroadcastsInDim R1 (![1] : Fin 1 → Fin R1.rank) := by decide
theorem bc_C1_M16 : C1.BroadcastsInDim M16 (![0, 1] : Fin 2 → Fin M16.rank) := by decide
theorem bc_R1_M16 : R1.BroadcastsInDim M16 (![0, 1] : Fin 2 → Fin M16.rank) := by decide

-- Pixel q of image b in the 16 × 1 × 512 × 512 layout: row q / 512, column q % 512.
def pix (b : Fin 16) (q : Fin 262144) : A4.Idx :=
  ix4 b (0 : Fin 1) (⟨q.val / 512, by omega⟩ : Fin 512) (⟨q.val % 512, by omega⟩ : Fin 512)

-- The logistic function.
def sg (x : EReal) : EReal := Ideal.logistic x

variable (a0 a1 a2 a3 a4 : A4.Idx → EReal)

-- The seven reductions over the 262144 pixels of each image: three summed over all images, four per image.
def sumP : EReal := ∑ b : Fin 16, ∑ q : Fin 262144, sg (a0 (pix b q))
def sumG : EReal := ∑ b : Fin 16, ∑ q : Fin 262144, a1 (pix b q)
def sumPG : EReal := ∑ b : Fin 16, ∑ q : Fin 262144, sg (a0 (pix b q)) * a1 (pix b q)
def rowP (b : Fin 16) : EReal := ∑ q : Fin 262144, sg (a0 (pix b q))
def rowG (b : Fin 16) : EReal := ∑ q : Fin 262144, a1 (pix b q)
def rowPG (b : Fin 16) : EReal := ∑ q : Fin 262144, sg (a0 (pix b q)) * a1 (pix b q)
def sq1 (b : Fin 16) : EReal := ∑ q : Fin 262144, sg (a2 (pix b q)) * sg (a2 (pix b q))
def sq2 (b : Fin 16) : EReal := ∑ q : Fin 262144, sg (a3 (pix b q)) * sg (a3 (pix b q))
def mds (b : Fin 16) : EReal :=
  ∑ q : Fin 262144, (a4 (pix b q) * (sg (a2 (pix b q)) - sg (a3 (pix b q)))) * (a4 (pix b q) * (sg (a2 (pix b q)) - sg (a3 (pix b q))))
def gram (b b' : Fin 16) : EReal := ∑ q : Fin 262144, sg (a2 (pix b q)) * sg (a3 (pix b' q))

def colP : Vec Ideal C1 .f32 := fun j => rowP a0 (j 0)
def colG : Vec Ideal C1 .f32 := fun j => rowG a1 (j 0)
def colPG : Vec Ideal C1 .f32 := fun j => rowPG a0 a1 (j 0)
def colS1 : Vec Ideal C1 .f32 := fun j => sq1 a2 (j 0)
def colS2 : Vec Ideal C1 .f32 := fun j => sq2 a3 (j 0)
def colMD : Vec Ideal C1 .f32 := fun j => mds a2 a3 a4 (j 0)
def gramM : Vec Ideal M16 .f32 := fun j => gram a2 a3 (j 0) (j 1)

def vP : Vec Ideal Sc .f32 := fun _ => sumP a0
def vG : Vec Ideal Sc .f32 := fun _ => sumG a1
def vPG : Vec Ideal Sc .f32 := fun _ => sumPG a0 a1
def vS1 : Vec Ideal V16 .f32 := fun j => sq1 a2 (j 0)
def vS2 : Vec Ideal V16 .f32 := fun j => sq2 a3 (j 0)
def vMD : Vec Ideal V16 .f32 := fun j => mds a2 a3 a4 (j 0)

-- The two loss terms computed from the seven reductions, and their sum.
def dice (p g pg : Vec Ideal Sc .f32) : Vec Ideal Sc .f32 :=
  subf (constant (F := Ideal) Sc .f32 0x3F800000#32)
    (Host.divf (addf (mulf (constant (F := Ideal) Sc .f32 0x40000000#32) pg) (constant (F := Ideal) Sc .f32 0x3DCCCCCD#32))
      (addf (addf p g) (constant (F := Ideal) Sc .f32 0x3DCCCCCD#32)))

def simPos (md : Vec Ideal V16 .f32) : Vec Ideal V16 .f32 :=
  Host.exp (Host.divf (Host.negf (Host.divf md (broadcastInDim V16 ![] bc_Sc_V16 (constant (F := Ideal) Sc .f32 0x48800000#32))))
    (broadcastInDim V16 ![] bc_Sc_V16 (constant (F := Ideal) Sc .f32 0x3DCCCCCD#32)))

def simNeg (s1 s2 : Vec Ideal V16 .f32) (x : Vec Ideal M16 .f32) : Vec Ideal V16 .f32 :=
  Host.reduceAdd
    (mulf
      (Host.exp (Host.divf (Host.negf (subf
          (addf
            (broadcastInDim M16 ![0, 1] bc_C1_M16 (broadcastInDim C1 ![0] bc_V16_C1
              (Host.divf s1 (broadcastInDim V16 ![] bc_Sc_V16 (constant (F := Ideal) Sc .f32 0x48800000#32)))))
            (broadcastInDim M16 ![0, 1] bc_R1_M16 (broadcastInDim R1 ![1] bc_V16_R1
              (Host.divf s2 (broadcastInDim V16 ![] bc_Sc_V16 (constant (F := Ideal) Sc .f32 0x48800000#32))))))
          (mulf (broadcastInDim M16 ![] bc_Sc_M16 (constant (F := Ideal) Sc .f32 0x40000000#32))
            (Host.divf x (broadcastInDim M16 ![] bc_Sc_M16 (constant (F := Ideal) Sc .f32 0x48800000#32))))))
        (broadcastInDim M16 ![] bc_Sc_M16 (constant (F := Ideal) Sc .f32 0x3DCCCCCD#32))))
      (subf (broadcastInDim M16 ![] bc_Sc_M16 (constant (F := Ideal) Sc .f32 0x3F800000#32))
        (uitofp (F := Ideal) .f32 (cmpi .eq (addi (iotaInDim M16 32 0) (broadcastInDim M16 ![] bc_Sc_M16 (constantI Sc 32 0#32))) (iotaInDim M16 32 1)))))
    (constant (F := Ideal) Sc .f32 0x00000000#32) red_M16_V16 hSc

def contrast (s1 s2 md : Vec Ideal V16 .f32) (x : Vec Ideal M16 .f32) : Vec Ideal Sc .f32 :=
  Host.divf
    (Host.reduceAdd (Host.negf (Host.log (Host.divf (simPos md) (addf (simPos md) (simNeg s1 s2 x)))))
      (constant (F := Ideal) Sc .f32 0x00000000#32) red_V16_Sc hSc)
    (constant (F := Ideal) Sc .f32 0x41800000#32)

def total (p g pg : Vec Ideal Sc .f32) (s1 s2 md : Vec Ideal V16 .f32) (x : Vec Ideal M16 .f32) : Vec Ideal Sc .f32 :=
  addf (dice p g pg)
    (mulf (constant (F := Ideal) Sc .f32 0x3F800000#32) (addf (constant (F := Ideal) Sc .f32 0x00000000#32) (contrast s1 s2 md x)))

def zero : Vec Ideal Sc .f32 := constant (F := Ideal) Sc .f32 0x00000000#32

end Cert.Spec

end
-- ==== Proof.KernelIdeal.Payloads.lean ====
import proofs.«128507_j77738908057903_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«128507_j77738908057903_1_alg».proof.Proof.Spec

noncomputable section

open scoped BigOperators

namespace Cert.KernelIdeal.Pay

open Cert.KernelIdeal Cert.KernelIdeal.Gen Idealize.ShloMosaic Idealize.ShloMosaic.ValueIdx

-- The body's arithmetic read at an index over the extended reals.
theorem col_cast_apply {α : Type} (v : S16.Idx → α) (h : S16.ShapeCasts S16x1) (b : Fin 16) (z : Fin 1) :
    shapeCast S16x1 v h (ix2 b z) = v (ix1 b) :=
  shapeCast_apply v h _ _ (by
    have hz : z.val = 0 := by omega
    rw [Shape.rowMajor_val_two, Shape.rowMajor_val_one]
    show b.val = b.val * 1 + z.val
    omega)

theorem rowsum_apply (v : FVec Ideal S16x16384 .f32) (b : Fin 16) :
    multiReduction (F := Ideal) .add [1] S16 v 0x00000000#32 reduces_S16x16384_S16 (.inl rfl) rfl (ix1 b)
      = ∑ k : Fin 16384, v (ix2 b k) := by
  refine (Ideal.multiReduction_add_single v _ reduces_S16x16384_S16 (.inl rfl) rfl (ix1 b)).trans ?_
  refine Finset.sum_congr rfl fun k _ => congrArg v ?_
  funext a
  match a with
  | ⟨0, _⟩ => rfl
  | ⟨1, _⟩ => rfl

theorem col_acc_apply (o : Vec Ideal S16x1 .f32) (v : FVec Ideal S16x16384 .f32) (b : Fin 16) (z : Fin 1) :
    addf (shapeCast S16x1 o shapeCasts_S16x1_S16x1)
        (shapeCast S16x1 (multiReduction (F := Ideal) .add [1] S16 v 0x00000000#32 reduces_S16x16384_S16 (.inl rfl) rfl)
          shapeCasts_S16_S16x1) (ix2 b z)
      = o (ix2 b z) + ∑ k : Fin 16384, v (ix2 b k) := by
  rw [shapeCast_self]
  show o (ix2 b z) + shapeCast S16x1 _ shapeCasts_S16_S16x1 (ix2 b z) = _
  rw [col_cast_apply, rowsum_apply]

theorem pay8_apply (x : Vec Ideal S16x16384 .f32) (i : S16x16384.Idx) : k0_pay8 (F := Ideal) x i = Spec.sg (x i) := by
  unfold k0_pay8
  show Ideal.logistic (shapeCast S16x16384 x shapeCasts_S16x16384_S16x16384 i) = Spec.sg (x i)
  rw [shapeCast_self]; rfl

theorem pay9_apply (x : Vec Ideal S16x16384 .f32) (i : S16x16384.Idx) : k0_pay9 (F := Ideal) x i = x i := by
  unfold k0_pay9
  show shapeCast S16x16384 x shapeCasts_S16x16384_S16x16384 i = x i
  rw [shapeCast_self]

theorem pay10_apply (x : Vec Ideal S16x16384 .f32) (i : S16x16384.Idx) : k0_pay10 (F := Ideal) x i = Spec.sg (x i) := by
  unfold k0_pay10
  show Ideal.logistic (shapeCast S16x16384 x shapeCasts_S16x16384_S16x16384 i) = Spec.sg (x i)
  rw [shapeCast_self]; rfl

theorem pay11_apply (x : Vec Ideal S16x16384 .f32) (i : S16x16384.Idx) : k0_pay11 (F := Ideal) x i = Spec.sg (x i) := by
  unfold k0_pay11
  show Ideal.logistic (shapeCast S16x16384 x shapeCasts_S16x16384_S16x16384 i) = Spec.sg (x i)
  rw [shapeCast_self]; rfl

theorem pay12_apply (x : Vec Ideal S16x16384 .f32) (i : S16x16384.Idx) : k0_pay12 (F := Ideal) x i = x i := by
  unfold k0_pay12
  show shapeCast S16x16384 x shapeCasts_S16x16384_S16x16384 i = x i
  rw [shapeCast_self]

theorem pay15_apply (o : Vec Ideal S16x1 .f32) (i : S16x1.Idx) : k0_pay15 (F := Ideal) o i = o i := by
  unfold k0_pay15
  show shapeCast S16x1 o shapeCasts_S16x1_S16x1 i = o i
  rw [shapeCast_self]

variable (x0 x1 x2 x3 x4 : Vec Ideal S16x16384 .f32) (o : Vec Ideal S16x1 .f32) (om : Vec Ideal S16x16 .f32)
  (b : Fin 16) (z : Fin 1) (b' : Fin 16)

-- Each column accumulator's payload is the old value plus this tile's sum along the row.
theorem pay13_apply : k0_pay13 (F := Ideal) x0 o (ix2 b z) = o (ix2 b z) + ∑ k : Fin 16384, Spec.sg (x0 (ix2 b k)) := by
  unfold k0_pay13
  refine (col_acc_apply o (k0_pay8 x0) b z).trans ?_
  exact congrArg (o (ix2 b z) + ·) (Finset.sum_congr rfl fun k _ => pay8_apply x0 _)

theorem pay14_apply : k0_pay14 (F := Ideal) x1 o (ix2 b z) = o (ix2 b z) + ∑ k : Fin 16384, x1 (ix2 b k) := by
  unfold k0_pay14
  refine (col_acc_apply o (k0_pay9 x1) b z).trans ?_
  exact congrArg (o (ix2 b z) + ·) (Finset.sum_congr rfl fun k _ => pay9_apply x1 _)

theorem pay16_apply (i : S16x16384.Idx) : k0_pay16 (F := Ideal) x0 x1 i = Spec.sg (x0 i) * x1 i := by
  unfold k0_pay16
  show k0_pay8 (F := Ideal) x0 i * k0_pay9 (F := Ideal) x1 i = _
  rw [pay8_apply, pay9_apply]

theorem col_sum_apply (v : FVec Ideal S16x16384 .f32) (b : Fin 16) (z : Fin 1) :
    shapeCast S16x1 (multiReduction (F := Ideal) .add [1] S16 v 0x00000000#32 reduces_S16x16384_S16 (.inl rfl) rfl)
        shapeCasts_S16_S16x1 (ix2 b z)
      = ∑ k : Fin 16384, v (ix2 b k) := by
  rw [col_cast_apply, rowsum_apply]

theorem pay17_apply : k0_pay17 (F := Ideal) (k0_pay15 o) (k0_pay16 x0 x1) (ix2 b z)
    = o (ix2 b z) + ∑ k : Fin 16384, Spec.sg (x0 (ix2 b k)) * x1 (ix2 b k) := by
  unfold k0_pay17
  show k0_pay15 (F := Ideal) o (ix2 b z) + shapeCast S16x1 _ shapeCasts_S16_S16x1 (ix2 b z) = _
  rw [pay15_apply, col_sum_apply]
  exact congrArg (o (ix2 b z) + ·) (Finset.sum_congr rfl fun k _ => pay16_apply x0 x1 _)

theorem pay19_apply : k0_pay19 (F := Ideal) (k0_pay10 x2) o (ix2 b z)
    = o (ix2 b z) + ∑ k : Fin 16384, Spec.sg (x2 (ix2 b k)) * Spec.sg (x2 (ix2 b k)) := by
  unfold k0_pay19
  refine (col_acc_apply o _ b z).trans ?_
  refine congrArg (o (ix2 b z) + ·) (Finset.sum_congr rfl fun k _ => ?_)
  show k0_pay10 (F := Ideal) x2 (ix2 b k) * k0_pay10 (F := Ideal) x2 (ix2 b k) = _
  rw [pay10_apply]

theorem pay20_apply : k0_pay20 (F := Ideal) (k0_pay11 x3) o (ix2 b z)
    = o (ix2 b z) + ∑ k : Fin 16384, Spec.sg (x3 (ix2 b k)) * Spec.sg (x3 (ix2 b k)) := by
  unfold k0_pay20
  refine (col_acc_apply o _ b z).trans ?_
  refine congrArg (o (ix2 b z) + ·) (Finset.sum_congr rfl fun k _ => ?_)
  show k0_pay11 (F := Ideal) x3 (ix2 b k) * k0_pay11 (F := Ideal) x3 (ix2 b k) = _
  rw [pay11_apply]

theorem pay18_apply : k0_pay18 (F := Ideal) (k0_pay10 x2) (k0_pay11 x3) (k0_pay12 x4) o (ix2 b z)
    = o (ix2 b z) + ∑ k : Fin 16384, (x4 (ix2 b k) * (Spec.sg (x2 (ix2 b k)) - Spec.sg (x3 (ix2 b k))))
        * (x4 (ix2 b k) * (Spec.sg (x2 (ix2 b k)) - Spec.sg (x3 (ix2 b k)))) := by
  unfold k0_pay18
  refine (col_acc_apply o _ b z).trans ?_
  refine congrArg (o (ix2 b z) + ·) (Finset.sum_congr rfl fun k _ => ?_)
  show (k0_pay12 (F := Ideal) x4 (ix2 b k) * (k0_pay10 (F := Ideal) x2 (ix2 b k) - k0_pay11 (F := Ideal) x3 (ix2 b k)))
      * (k0_pay12 (F := Ideal) x4 (ix2 b k) * (k0_pay10 (F := Ideal) x2 (ix2 b k) - k0_pay11 (F := Ideal) x3 (ix2 b k))) = _
  rw [pay12_apply, pay10_apply, pay11_apply]

theorem lhs_dot_0 (i : S16x16.Idx) (q : dot_S16x16384_S16x16384_S16x16_1_1_0_0_n_n.contr.Idx) :
    (dot_S16x16384_S16x16384_S16x16_1_1_0_0_n_n.lhsIdx i q 0).val = (i 0).val := by
  unfold DotDims.lhsIdx
  rw [dif_neg (show ¬(0 : Fin S16x16384.rank) ∈ dot_S16x16384_S16x16384_S16x16_1_1_0_0_n_n.lhsBatch by decide), dif_pos (show (0 : Fin S16x16384.rank) ∈ dot_S16x16384_S16x16384_S16x16_1_1_0_0_n_n.lhsNonContracting by decide)]
  rfl
theorem lhs_dot_1 (i : S16x16.Idx) (q : dot_S16x16384_S16x16384_S16x16_1_1_0_0_n_n.contr.Idx) :
    (dot_S16x16384_S16x16384_S16x16_1_1_0_0_n_n.lhsIdx i q 1).val = (q ⟨0, by decide⟩).val :=
  dot_S16x16384_S16x16384_S16x16_1_1_0_0_n_n.lhsIdx_val_of_single rfl i q
theorem rhs_dot_0 (i : S16x16.Idx) (q : dot_S16x16384_S16x16384_S16x16_1_1_0_0_n_n.contr.Idx) :
    (dot_S16x16384_S16x16384_S16x16_1_1_0_0_n_n.rhsIdx i q 0).val = (i 1).val := by
  unfold DotDims.rhsIdx
  rw [dif_neg (show ¬(0 : Fin S16x16384.rank) ∈ dot_S16x16384_S16x16384_S16x16_1_1_0_0_n_n.rhsBatch by decide), dif_pos (show (0 : Fin S16x16384.rank) ∈ dot_S16x16384_S16x16384_S16x16_1_1_0_0_n_n.rhsNonContracting by decide)]
  rfl
theorem rhs_dot_1 (i : S16x16.Idx) (q : dot_S16x16384_S16x16384_S16x16_1_1_0_0_n_n.contr.Idx) :
    (dot_S16x16384_S16x16384_S16x16_1_1_0_0_n_n.rhsIdx i q 1).val = (q ⟨0, by decide⟩).val :=
  dot_S16x16384_S16x16384_S16x16_1_1_0_0_n_n.rhsIdx_val_of_single rfl i q

-- The product of one tile with the other's transpose, entry by entry, as a sum over the 16384 columns.
theorem gram_apply (l r : FVec Ideal S16x16384 .bf16) (b b' : Fin 16) :
    matmul (F := Ideal) dot_S16x16384_S16x16384_S16x16_1_1_0_0_n_n none l r (constant (F := Ideal) S16x16 .f32 0x00000000#32) (ix2 b b')
      = ∑ k : Fin 16384, l (ix2 b k) * r (ix2 b' k) := by
  simp only [matmul]
  rw [Ideal.matmul_constant_zero_apply, ← Equiv.sum_comp (contrEquiv1 dot_S16x16384_S16x16384_S16x16_1_1_0_0_n_n 16384 rfl rfl).symm]
  refine Finset.sum_congr rfl fun k _ => ?_
  have hk := contrEquiv1_symm_val dot_S16x16384_S16x16384_S16x16_1_1_0_0_n_n 16384 rfl rfl k
  have el : dot_S16x16384_S16x16384_S16x16_1_1_0_0_n_n.lhsIdx (ix2 b b') ((contrEquiv1 dot_S16x16384_S16x16384_S16x16_1_1_0_0_n_n 16384 rfl rfl).symm k) = ix2 b k := funext fun a => Fin.ext (by
    match a with
    | ⟨0, _⟩ => exact lhs_dot_0 _ _
    | ⟨1, _⟩ => exact (lhs_dot_1 _ _).trans hk)
  have er : dot_S16x16384_S16x16384_S16x16_1_1_0_0_n_n.rhsIdx (ix2 b b') ((contrEquiv1 dot_S16x16384_S16x16384_S16x16_1_1_0_0_n_n 16384 rfl rfl).symm k) = ix2 b' k := funext fun a => Fin.ext (by
    match a with
    | ⟨0, _⟩ => exact rhs_dot_0 _ _
    | ⟨1, _⟩ => exact (rhs_dot_1 _ _).trans hk)
  rw [el, er]

theorem pay21_apply : k0_pay21 (F := Ideal) (k0_pay10 x2) (k0_pay11 x3) om (ix2 b b')
    = om (ix2 b b') + ∑ k : Fin 16384, Spec.sg (x2 (ix2 b k)) * Spec.sg (x3 (ix2 b' k)) := by
  unfold k0_pay21
  show shapeCast S16x16 om shapeCasts_S16x16_S16x16 (ix2 b b')
      + matmul (F := Ideal) dot_S16x16384_S16x16384_S16x16_1_1_0_0_n_n none (truncf .bf16 (k0_pay10 (F := Ideal) x2) bitsLt_bf16_f32)
          (truncf .bf16 (k0_pay11 (F := Ideal) x3) bitsLt_bf16_f32) (constant (F := Ideal) S16x16 .f32 0x00000000#32) (ix2 b b') = _
  rw [shapeCast_self, gram_apply]
  refine congrArg (om (ix2 b b') + ·) (Finset.sum_congr rfl fun k _ => ?_)
  show k0_pay10 (F := Ideal) x2 (ix2 b k) * k0_pay11 (F := Ideal) x3 (ix2 b' k) = _
  rw [pay10_apply, pay11_apply]

-- The seven reset payloads are zero.
theorem pay_zero_col (j : S16x1.Idx) : k0_pay1 (F := Ideal) j = 0 := Ideal.ofBits_zero_f32
theorem pay2_zero (j : S16x1.Idx) : k0_pay2 (F := Ideal) j = 0 := Ideal.ofBits_zero_f32
theorem pay3_zero (j : S16x1.Idx) : k0_pay3 (F := Ideal) j = 0 := Ideal.ofBits_zero_f32
theorem pay4_zero (j : S16x1.Idx) : k0_pay4 (F := Ideal) j = 0 := Ideal.ofBits_zero_f32
theorem pay5_zero (j : S16x1.Idx) : k0_pay5 (F := Ideal) j = 0 := Ideal.ofBits_zero_f32
theorem pay6_zero (j : S16x1.Idx) : k0_pay6 (F := Ideal) j = 0 := Ideal.ofBits_zero_f32
theorem pay7_zero (j : S16x16.Idx) : k0_pay7 (F := Ideal) j = 0 := Ideal.ofBits_zero_f32

end Cert.KernelIdeal.Pay

end
-- ==== Proof.TileMath.lean ====
import Mathlib.Algebra.BigOperators.Fin
import Mathlib.Algebra.BigOperators.Intervals
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«128507_j77738908057903_1_alg».proof.Proof.Spec

noncomputable section

open scoped BigOperators

namespace Cert.TileMath

open Idealize.ShloMosaic Idealize.ShloMosaic.ValueIdx

-- A running sum started from zero.
def accum {α : Type*} [AddCommMonoid α] (c : ℕ → α) : ℕ → α
  | 0 => 0 + c 0
  | (n + 1) => accum c n + c (n + 1)

theorem accum_eq {α : Type*} [AddCommMonoid α] (c : ℕ → α) (n : ℕ) :
    accum c n = ∑ t ∈ Finset.range (n + 1), c t := by
  induction n with
  | zero => rw [Finset.sum_range_one]; exact zero_add _
  | succ n ih => rw [Finset.sum_range_succ, ← ih]; rfl

def tileEquiv : Fin 16 × Fin 16384 ≃ Fin 262144 where
  toFun p := ⟨16384 * p.1.val + p.2.val, by omega⟩
  invFun q := (⟨q.val / 16384, by omega⟩, ⟨q.val % 16384, by omega⟩)
  left_inv p := by
    refine Prod.ext (Fin.ext ?_) (Fin.ext ?_)
    · show (16384 * p.1.val + p.2.val) / 16384 = p.1.val
      omega
    · show (16384 * p.1.val + p.2.val) % 16384 = p.2.val
      omega
  right_inv q := by
    refine Fin.ext ?_
    show 16384 * (q.val / 16384) + q.val % 16384 = q.val
    omega

-- Sixteen tiles of 16384 columns list every pixel index exactly once.
theorem sum_tiles_fin {α : Type*} [AddCommMonoid α] (f : Fin 262144 → α) :
    ∑ t : Fin 16, ∑ k : Fin 16384, f ⟨16384 * t.val + k.val, by omega⟩ = ∑ q, f q := by
  rw [← Fintype.sum_prod_type (f := fun p : Fin 16 × Fin 16384 => f ⟨16384 * p.1.val + p.2.val, by omega⟩)]
  exact Fintype.sum_equiv tileEquiv _ _ (fun _ => rfl)

theorem sum_tiles {α : Type*} [AddCommMonoid α] (f : Fin 262144 → α) :
    ∑ t ∈ Finset.range 16, ∑ k : Fin 16384,
        (if h : 16384 * t + k.val < 262144 then f ⟨16384 * t + k.val, h⟩ else 0)
      = ∑ q : Fin 262144, f q := by
  rw [← sum_tiles_fin f,
    ← Fin.sum_univ_eq_sum_range
      (fun t => ∑ k : Fin 16384, (if h : 16384 * t + k.val < 262144 then f ⟨16384 * t + k.val, h⟩ else 0)) 16]
  exact Finset.sum_congr rfl fun t _ => Finset.sum_congr rfl fun k _ => dif_pos (by omega)

theorem accum_tiles {α : Type*} [AddCommMonoid α] (f : Fin 262144 → α) :
    accum (fun t => ∑ k : Fin 16384,
        (if h : 16384 * t + k.val < 262144 then f ⟨16384 * t + k.val, h⟩ else 0)) 15
      = ∑ q : Fin 262144, f q :=
  (accum_eq _ 15).trans (sum_tiles f)

-- Flattening an image to a row of 262144 keeps pixel q at column q.
theorem reshape_pix {α : Type} (a : Spec.A4.Idx → α) (h : Spec.A4.ShapeCasts Spec.R2) (b : Fin 16) (q : Fin 262144) :
    shapeCast Spec.R2 a h (ix2 b q) = a (Spec.pix b q) :=
  shapeCast_apply a h _ _ (by
    rw [Shape.rowMajor_val_four, Shape.rowMajor_val_two]
    show ((b.val * 1 + 0) * 512 + q.val / 512) * 512 + q.val % 512 = b.val * 262144 + q.val
    omega)

-- Summing a 16 × 1 column adds its sixteen entries; recasting it to a vector keeps them.
theorem reduce_col (r : Fin 16 → EReal) :
    Host.reduceAdd (F := Ideal) (φ := .f32) (fun j : Spec.C1.Idx => r (j 0))
        (constant (F := Ideal) Spec.Sc .f32 0x00000000#32) Spec.red_C1_Sc Spec.hSc
      = fun _ => ∑ b : Fin 16, r b := by
  funext j
  show Ideal.hostReduceAdd Spec.red_C1_Sc (fun j : Spec.C1.Idx => r (j 0)) (Ideal.ofBits .f32 0x00000000#32) j = _
  rw [Ideal.hostReduceAdd_total Spec.red_C1_Sc (fun b => b.elim0), Ideal.ofBits_zero_f32, zero_add, sum_idx2]
  exact Finset.sum_congr rfl fun a _ => Fin.sum_univ_one _

theorem reduce_colP (a0 : Spec.A4.Idx → EReal) :
    Host.reduceAdd (F := Ideal) (Spec.colP a0) (constant (F := Ideal) Spec.Sc .f32 0x00000000#32) Spec.red_C1_Sc Spec.hSc
      = Spec.vP a0 :=
  reduce_col (Spec.rowP a0)

theorem reduce_colG (a1 : Spec.A4.Idx → EReal) :
    Host.reduceAdd (F := Ideal) (Spec.colG a1) (constant (F := Ideal) Spec.Sc .f32 0x00000000#32) Spec.red_C1_Sc Spec.hSc
      = Spec.vG a1 :=
  reduce_col (Spec.rowG a1)

theorem reduce_colPG (a0 a1 : Spec.A4.Idx → EReal) :
    Host.reduceAdd (F := Ideal) (Spec.colPG a0 a1) (constant (F := Ideal) Spec.Sc .f32 0x00000000#32) Spec.red_C1_Sc Spec.hSc
      = Spec.vPG a0 a1 :=
  reduce_col (Spec.rowPG a0 a1)

theorem cast_col {α : Type} (r : Fin 16 → α) :
    shapeCast Spec.V16 (fun j : Spec.C1.Idx => r (j 0)) Spec.cast_C1_V16 = fun j => r (j 0) := by
  funext j
  refine (shapeCast_apply _ Spec.cast_C1_V16 j (ix2 (j 0) (0 : Fin 1)) ?_).trans rfl
  rw [Shape.rowMajor_val_two, Shape.rowMajor_val_one]
  show (j 0).val * 1 + 0 = (j 0).val
  omega

theorem cast_colS1 (a2 : Spec.A4.Idx → EReal) :
    shapeCast Spec.V16 (Spec.colS1 a2) Spec.cast_C1_V16 = Spec.vS1 a2 :=
  cast_col (Spec.sq1 a2)

theorem cast_colS2 (a3 : Spec.A4.Idx → EReal) :
    shapeCast Spec.V16 (Spec.colS2 a3) Spec.cast_C1_V16 = Spec.vS2 a3 :=
  cast_col (Spec.sq2 a3)

theorem cast_colMD (a2 a3 a4 : Spec.A4.Idx → EReal) :
    shapeCast Spec.V16 (Spec.colMD a2 a3 a4) Spec.cast_C1_V16 = Spec.vMD a2 a3 a4 :=
  cast_col (Spec.mds a2 a3 a4)

end Cert.TileMath

end
-- ==== Proof.KernelIdeal.Blocks.lean ====
import proofs.«128507_j77738908057903_1_alg».proof.Proof.KernelIdeal.Kit
import proofs.«128507_j77738908057903_1_alg».proof.Proof.TileMath
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

section Generic

variable {F : FTy → Type} [FloatOps F]
variable (m : (ℓ : Loc nD τ sig) → Buf (Elt F) ℓ)

-- At the region's entry each input array is its argument flattened to 16 rows of 262144.
theorem V_main_v0 (c : Dev nD) : (V m c main_v0 : Vec F S16x262144 .f32)
    = shapeCast S16x262144 (m ((c : Thread nD τ).loc main_arg0)) shapeCasts_S16x1x512x512_S16x262144 := by
  show StableHlo.after hostOps0 (fun b => m (c, b)) (Proc.devRef .tc main_v0) = _
  after_results
  rfl

theorem V_main_v1 (c : Dev nD) : (V m c main_v1 : Vec F S16x262144 .f32)
    = shapeCast S16x262144 (m ((c : Thread nD τ).loc main_arg1)) shapeCasts_S16x1x512x512_S16x262144 := by
  show StableHlo.after hostOps0 (fun b => m (c, b)) (Proc.devRef .tc main_v1) = _
  after_results
  rfl

theorem V_main_v2 (c : Dev nD) : (V m c main_v2 : Vec F S16x262144 .f32)
    = shapeCast S16x262144 (m ((c : Thread nD τ).loc main_arg2)) shapeCasts_S16x1x512x512_S16x262144 := by
  show StableHlo.after hostOps0 (fun b => m (c, b)) (Proc.devRef .tc main_v2) = _
  after_results
  rfl

theorem V_main_v3 (c : Dev nD) : (V m c main_v3 : Vec F S16x262144 .f32)
    = shapeCast S16x262144 (m ((c : Thread nD τ).loc main_arg3)) shapeCasts_S16x1x512x512_S16x262144 := by
  show StableHlo.after hostOps0 (fun b => m (c, b)) (Proc.devRef .tc main_v3) = _
  after_results
  rfl

theorem V_main_v4 (c : Dev nD) : (V m c main_v4 : Vec F S16x262144 .f32)
    = shapeCast S16x262144 (m ((c : Thread nD τ).loc main_arg4)) shapeCasts_S16x1x512x512_S16x262144 := by
  show StableHlo.after hostOps0 (fun b => m (c, b)) (Proc.devRef .tc main_v4) = _
  after_results
  rfl

-- Input tile t is columns 16384 · t to 16384 · t + 16383 of every row.
theorem widx0_0 : ∀ t : Fin grid0.N, win0_0.index t 0 = 0 ∧ win0_0.index t 1 = t.val := by decide +kernel

theorem iblk_apply_0 (c : Dev nD) (t : Fin cfg0.N) (b : Fin 16) (k : Fin 16384) :
    (iblk m c 0 t : Vec F S16x16384 .f32) (ix2 b k)
      = (V m c main_v0 : Vec F S16x262144 .f32)
          (ix2 b ⟨16384 * t.val + k.val, by have := t.isLt; have : cfg0.N = 16 := N_0; omega⟩) := by
  have hi := widx0_0 t
  unfold iblk
  rw [View.read_apply]
  show V m c main_v0 _ = V m c main_v0 _
  congr 1
  funext a
  apply Fin.ext
  match a with
  | ⟨0, _⟩ => show win0_0.index t 0 * 16 + 1 * b.val = b.val; rw [hi.1]; omega
  | ⟨1, _⟩ => show win0_0.index t 1 * 16384 + 1 * k.val = 16384 * t.val + k.val; rw [hi.2]; omega

theorem widx0_1 : ∀ t : Fin grid0.N, win0_1.index t 0 = 0 ∧ win0_1.index t 1 = t.val := by decide +kernel

theorem iblk_apply_1 (c : Dev nD) (t : Fin cfg0.N) (b : Fin 16) (k : Fin 16384) :
    (iblk m c 1 t : Vec F S16x16384 .f32) (ix2 b k)
      = (V m c main_v1 : Vec F S16x262144 .f32)
          (ix2 b ⟨16384 * t.val + k.val, by have := t.isLt; have : cfg0.N = 16 := N_0; omega⟩) := by
  have hi := widx0_1 t
  unfold iblk
  rw [View.read_apply]
  show V m c main_v1 _ = V m c main_v1 _
  congr 1
  funext a
  apply Fin.ext
  match a with
  | ⟨0, _⟩ => show win0_1.index t 0 * 16 + 1 * b.val = b.val; rw [hi.1]; omega
  | ⟨1, _⟩ => show win0_1.index t 1 * 16384 + 1 * k.val = 16384 * t.val + k.val; rw [hi.2]; omega

theorem widx0_2 : ∀ t : Fin grid0.N, win0_2.index t 0 = 0 ∧ win0_2.index t 1 = t.val := by decide +kernel

theorem iblk_apply_2 (c : Dev nD) (t : Fin cfg0.N) (b : Fin 16) (k : Fin 16384) :
    (iblk m c 2 t : Vec F S16x16384 .f32) (ix2 b k)
      = (V m c main_v2 : Vec F S16x262144 .f32)
          (ix2 b ⟨16384 * t.val + k.val, by have := t.isLt; have : cfg0.N = 16 := N_0; omega⟩) := by
  have hi := widx0_2 t
  unfold iblk
  rw [View.read_apply]
  show V m c main_v2 _ = V m c main_v2 _
  congr 1
  funext a
  apply Fin.ext
  match a with
  | ⟨0, _⟩ => show win0_2.index t 0 * 16 + 1 * b.val = b.val; rw [hi.1]; omega
  | ⟨1, _⟩ => show win0_2.index t 1 * 16384 + 1 * k.val = 16384 * t.val + k.val; rw [hi.2]; omega

theorem widx0_3 : ∀ t : Fin grid0.N, win0_3.index t 0 = 0 ∧ win0_3.index t 1 = t.val := by decide +kernel

theorem iblk_apply_3 (c : Dev nD) (t : Fin cfg0.N) (b : Fin 16) (k : Fin 16384) :
    (iblk m c 3 t : Vec F S16x16384 .f32) (ix2 b k)
      = (V m c main_v3 : Vec F S16x262144 .f32)
          (ix2 b ⟨16384 * t.val + k.val, by have := t.isLt; have : cfg0.N = 16 := N_0; omega⟩) := by
  have hi := widx0_3 t
  unfold iblk
  rw [View.read_apply]
  show V m c main_v3 _ = V m c main_v3 _
  congr 1
  funext a
  apply Fin.ext
  match a with
  | ⟨0, _⟩ => show win0_3.index t 0 * 16 + 1 * b.val = b.val; rw [hi.1]; omega
  | ⟨1, _⟩ => show win0_3.index t 1 * 16384 + 1 * k.val = 16384 * t.val + k.val; rw [hi.2]; omega

theorem widx0_4 : ∀ t : Fin grid0.N, win0_4.index t 0 = 0 ∧ win0_4.index t 1 = t.val := by decide +kernel

theorem iblk_apply_4 (c : Dev nD) (t : Fin cfg0.N) (b : Fin 16) (k : Fin 16384) :
    (iblk m c 4 t : Vec F S16x16384 .f32) (ix2 b k)
      = (V m c main_v4 : Vec F S16x262144 .f32)
          (ix2 b ⟨16384 * t.val + k.val, by have := t.isLt; have : cfg0.N = 16 := N_0; omega⟩) := by
  have hi := widx0_4 t
  unfold iblk
  rw [View.read_apply]
  show V m c main_v4 _ = V m c main_v4 _
  congr 1
  funext a
  apply Fin.ext
  match a with
  | ⟨0, _⟩ => show win0_4.index t 0 * 16 + 1 * b.val = b.val; rw [hi.1]; omega
  | ⟨1, _⟩ => show win0_4.index t 1 * 16384 + 1 * k.val = 16384 * t.val + k.val; rw [hi.2]; omega

end Generic

section AtIdeal

variable (m : (ℓ : Loc nD τ sig) → Buf (Elt Ideal) ℓ)

-- So entry (b, k) of tile t is pixel 16384 · t + k of image b.
theorem iblk_pix_0 (c : Dev nD) (t : Fin cfg0.N) (b : Fin 16) (k : Fin 16384) :
    (iblk m c 0 t : Vec Ideal S16x16384 .f32) (ix2 b k)
      = (m ((c : Thread nD τ).loc main_arg0) : Spec.A4.Idx → EReal)
          (Spec.pix b ⟨16384 * t.val + k.val, by have := t.isLt; have : cfg0.N = 16 := N_0; omega⟩) :=
  (iblk_apply_0 m c t b k).trans ((congrFun (V_main_v0 m c) _).trans
    (TileMath.reshape_pix (m ((c : Thread nD τ).loc main_arg0) : Spec.A4.Idx → EReal) shapeCasts_S16x1x512x512_S16x262144 b _))

theorem iblk_pix_1 (c : Dev nD) (t : Fin cfg0.N) (b : Fin 16) (k : Fin 16384) :
    (iblk m c 1 t : Vec Ideal S16x16384 .f32) (ix2 b k)
      = (m ((c : Thread nD τ).loc main_arg1) : Spec.A4.Idx → EReal)
          (Spec.pix b ⟨16384 * t.val + k.val, by have := t.isLt; have : cfg0.N = 16 := N_0; omega⟩) :=
  (iblk_apply_1 m c t b k).trans ((congrFun (V_main_v1 m c) _).trans
    (TileMath.reshape_pix (m ((c : Thread nD τ).loc main_arg1) : Spec.A4.Idx → EReal) shapeCasts_S16x1x512x512_S16x262144 b _))

theorem iblk_pix_2 (c : Dev nD) (t : Fin cfg0.N) (b : Fin 16) (k : Fin 16384) :
    (iblk m c 2 t : Vec Ideal S16x16384 .f32) (ix2 b k)
      = (m ((c : Thread nD τ).loc main_arg2) : Spec.A4.Idx → EReal)
          (Spec.pix b ⟨16384 * t.val + k.val, by have := t.isLt; have : cfg0.N = 16 := N_0; omega⟩) :=
  (iblk_apply_2 m c t b k).trans ((congrFun (V_main_v2 m c) _).trans
    (TileMath.reshape_pix (m ((c : Thread nD τ).loc main_arg2) : Spec.A4.Idx → EReal) shapeCasts_S16x1x512x512_S16x262144 b _))

theorem iblk_pix_3 (c : Dev nD) (t : Fin cfg0.N) (b : Fin 16) (k : Fin 16384) :
    (iblk m c 3 t : Vec Ideal S16x16384 .f32) (ix2 b k)
      = (m ((c : Thread nD τ).loc main_arg3) : Spec.A4.Idx → EReal)
          (Spec.pix b ⟨16384 * t.val + k.val, by have := t.isLt; have : cfg0.N = 16 := N_0; omega⟩) :=
  (iblk_apply_3 m c t b k).trans ((congrFun (V_main_v3 m c) _).trans
    (TileMath.reshape_pix (m ((c : Thread nD τ).loc main_arg3) : Spec.A4.Idx → EReal) shapeCasts_S16x1x512x512_S16x262144 b _))

theorem iblk_pix_4 (c : Dev nD) (t : Fin cfg0.N) (b : Fin 16) (k : Fin 16384) :
    (iblk m c 4 t : Vec Ideal S16x16384 .f32) (ix2 b k)
      = (m ((c : Thread nD τ).loc main_arg4) : Spec.A4.Idx → EReal)
          (Spec.pix b ⟨16384 * t.val + k.val, by have := t.isLt; have : cfg0.N = 16 := N_0; omega⟩) :=
  (iblk_apply_4 m c t b k).trans ((congrFun (V_main_v4 m c) _).trans
    (TileMath.reshape_pix (m ((c : Thread nD τ).loc main_arg4) : Spec.A4.Idx → EReal) shapeCasts_S16x1x512x512_S16x262144 b _))

end AtIdeal

end Cert.KernelIdeal.Fr

end
-- ==== Proof.KernelIdeal.Accum.lean ====
import proofs.«128507_j77738908057903_1_alg».proof.Proof.KernelIdeal.CaseValues
import proofs.«128507_j77738908057903_1_alg».proof.Proof.KernelIdeal.Payloads
import proofs.«128507_j77738908057903_1_alg».proof.Proof.KernelIdeal.Blocks
import proofs.«128507_j77738908057903_1_alg».proof.Proof.TileMath
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.KernelIdeal.Pay Cert.TileMath
open scoped BigOperators

variable (mI : (ℓ : Loc nD τ sig) → Buf (Elt Ideal) ℓ)

abbrev a0 (c : Dev nD) : Spec.A4.Idx → EReal := mI ((c : Thread nD τ).loc main_arg0)
abbrev a1 (c : Dev nD) : Spec.A4.Idx → EReal := mI ((c : Thread nD τ).loc main_arg1)
abbrev a2 (c : Dev nD) : Spec.A4.Idx → EReal := mI ((c : Thread nD τ).loc main_arg2)
abbrev a3 (c : Dev nD) : Spec.A4.Idx → EReal := mI ((c : Thread nD τ).loc main_arg3)
abbrev a4 (c : Dev nD) : Spec.A4.Idx → EReal := mI ((c : Thread nD τ).loc main_arg4)

def tile (f : Fin 262144 → EReal) (t : ℕ) : EReal :=
  ∑ k : Fin 16384, (if h : 16384 * t + k.val < 262144 then f ⟨16384 * t + k.val, h⟩ else 0)

theorem accum_tile (f : Fin 262144 → EReal) : accum (tile f) 15 = ∑ q : Fin 262144, f q := accum_tiles f

theorem tile_at (f : Fin 262144 → EReal) (t : Fin cfg0.N) :
    tile f t.val = ∑ k : Fin 16384, f ⟨16384 * t.val + k.val, by have := t.isLt; have : cfg0.N = 16 := N_0; have := k.isLt; omega⟩ := by
  unfold tile
  refine Finset.sum_congr rfl fun k _ => ?_
  have : 16384 * t.val + k.val < 262144 := by have := t.isLt; have : cfg0.N = 16 := N_0; have := k.isLt; omega
  rw [dif_pos this]

def fP (c : Dev nD) (b : Fin 16) (q : Fin 262144) : EReal := Spec.sg (a0 mI c (Spec.pix b q))
def fG (c : Dev nD) (b : Fin 16) (q : Fin 262144) : EReal := a1 mI c (Spec.pix b q)
def fPG (c : Dev nD) (b : Fin 16) (q : Fin 262144) : EReal := Spec.sg (a0 mI c (Spec.pix b q)) * a1 mI c (Spec.pix b q)
def fS1 (c : Dev nD) (b : Fin 16) (q : Fin 262144) : EReal := Spec.sg (a2 mI c (Spec.pix b q)) * Spec.sg (a2 mI c (Spec.pix b q))
def fS2 (c : Dev nD) (b : Fin 16) (q : Fin 262144) : EReal := Spec.sg (a3 mI c (Spec.pix b q)) * Spec.sg (a3 mI c (Spec.pix b q))
def fMD (c : Dev nD) (b : Fin 16) (q : Fin 262144) : EReal :=
  (a4 mI c (Spec.pix b q) * (Spec.sg (a2 mI c (Spec.pix b q)) - Spec.sg (a3 mI c (Spec.pix b q)))) * (a4 mI c (Spec.pix b q) * (Spec.sg (a2 mI c (Spec.pix b q)) - Spec.sg (a3 mI c (Spec.pix b q))))
def fX (c : Dev nD) (b b' : Fin 16) (q : Fin 262144) : EReal := Spec.sg (a2 mI c (Spec.pix b q)) * Spec.sg (a3 mI c (Spec.pix b' q))

abbrev xb0 (c : Dev nD) (t : Fin cfg0.N) : Vec Ideal S16x16384 .f32 := iblk mI c 0 t
abbrev xb1 (c : Dev nD) (t : Fin cfg0.N) : Vec Ideal S16x16384 .f32 := iblk mI c 1 t
abbrev xb2 (c : Dev nD) (t : Fin cfg0.N) : Vec Ideal S16x16384 .f32 := iblk mI c 2 t
abbrev xb3 (c : Dev nD) (t : Fin cfg0.N) : Vec Ideal S16x16384 .f32 := iblk mI c 3 t
abbrev xb4 (c : Dev nD) (t : Fin cfg0.N) : Vec Ideal S16x16384 .f32 := iblk mI c 4 t

theorem tileP_eq (c : Dev nD) (t : Fin cfg0.N) (b : Fin 16) :
    (∑ k : Fin 16384, Spec.sg (xb0 mI c t (ix2 b k))) = tile (fP mI c b) t.val := by
  rw [tile_at]
  refine Finset.sum_congr rfl fun k _ => ?_
  show Spec.sg ((iblk mI c 0 t : Vec Ideal S16x16384 .f32) (ix2 b k)) = _
  rw [iblk_pix_0]; rfl

theorem tileG_eq (c : Dev nD) (t : Fin cfg0.N) (b : Fin 16) :
    (∑ k : Fin 16384, xb1 mI c t (ix2 b k)) = tile (fG mI c b) t.val := by
  rw [tile_at]
  refine Finset.sum_congr rfl fun k _ => ?_
  show (iblk mI c 1 t : Vec Ideal S16x16384 .f32) (ix2 b k) = _
  rw [iblk_pix_1]; rfl

theorem tilePG_eq (c : Dev nD) (t : Fin cfg0.N) (b : Fin 16) :
    (∑ k : Fin 16384, Spec.sg (xb0 mI c t (ix2 b k)) * xb1 mI c t (ix2 b k)) = tile (fPG mI c b) t.val := by
  rw [tile_at]
  refine Finset.sum_congr rfl fun k _ => ?_
  show Spec.sg ((iblk mI c 0 t : Vec Ideal S16x16384 .f32) (ix2 b k)) * (iblk mI c 1 t : Vec Ideal S16x16384 .f32) (ix2 b k) = _
  rw [iblk_pix_0, iblk_pix_1]; rfl

theorem tileS1_eq (c : Dev nD) (t : Fin cfg0.N) (b : Fin 16) :
    (∑ k : Fin 16384, Spec.sg (xb2 mI c t (ix2 b k)) * Spec.sg (xb2 mI c t (ix2 b k))) = tile (fS1 mI c b) t.val := by
  rw [tile_at]
  refine Finset.sum_congr rfl fun k _ => ?_
  show Spec.sg ((iblk mI c 2 t : Vec Ideal S16x16384 .f32) (ix2 b k)) * Spec.sg ((iblk mI c 2 t : Vec Ideal S16x16384 .f32) (ix2 b k)) = _
  rw [iblk_pix_2]; rfl

theorem tileS2_eq (c : Dev nD) (t : Fin cfg0.N) (b : Fin 16) :
    (∑ k : Fin 16384, Spec.sg (xb3 mI c t (ix2 b k)) * Spec.sg (xb3 mI c t (ix2 b k))) = tile (fS2 mI c b) t.val := by
  rw [tile_at]
  refine Finset.sum_congr rfl fun k _ => ?_
  show Spec.sg ((iblk mI c 3 t : Vec Ideal S16x16384 .f32) (ix2 b k)) * Spec.sg ((iblk mI c 3 t : Vec Ideal S16x16384 .f32) (ix2 b k)) = _
  rw [iblk_pix_3]; rfl

theorem tileMD_eq (c : Dev nD) (t : Fin cfg0.N) (b : Fin 16) :
    (∑ k : Fin 16384, (xb4 mI c t (ix2 b k) * (Spec.sg (xb2 mI c t (ix2 b k)) - Spec.sg (xb3 mI c t (ix2 b k))))
        * (xb4 mI c t (ix2 b k) * (Spec.sg (xb2 mI c t (ix2 b k)) - Spec.sg (xb3 mI c t (ix2 b k))))) = tile (fMD mI c b) t.val := by
  rw [tile_at]
  refine Finset.sum_congr rfl fun k _ => ?_
  dsimp only [xb2, xb3, xb4]
  rw [iblk_pix_2, iblk_pix_3, iblk_pix_4]; rfl

theorem tileX_eq (c : Dev nD) (t : Fin cfg0.N) (b b' : Fin 16) :
    (∑ k : Fin 16384, Spec.sg (xb2 mI c t (ix2 b k)) * Spec.sg (xb3 mI c t (ix2 b' k))) = tile (fX mI c b b') t.val := by
  rw [tile_at]
  refine Finset.sum_congr rfl fun k _ => ?_
  show Spec.sg ((iblk mI c 2 t : Vec Ideal S16x16384 .f32) (ix2 b k)) * Spec.sg ((iblk mI c 3 t : Vec Ideal S16x16384 .f32) (ix2 b' k)) = _
  rw [iblk_pix_2, iblk_pix_3]; rfl

theorem col_accum (comp : (n : ℕ) → n < cfg0.N → Vec Ideal S16x1 .f32) (f : Fin 16 → Fin 262144 → EReal)
    (h0 : ∀ (h : 0 < cfg0.N) (b : Fin 16) (z : Fin 1), comp 0 h (ix2 b z) = 0 + tile (f b) 0)
    (hs : ∀ (n : ℕ) (h : n + 1 < cfg0.N) (b : Fin 16) (z : Fin 1),
      comp (n + 1) h (ix2 b z) = comp n (Nat.lt_of_succ_lt h) (ix2 b z) + tile (f b) (n + 1)) :
    ∀ (n : ℕ) (h : n < cfg0.N), comp n h = fun j => accum (tile (f (j 0))) n
  | 0, h => by
    funext j
    obtain ⟨b, z, rfl⟩ : ∃ (b : Fin 16) (z : Fin 1), j = ix2 b z := ⟨j 0, j 1, eq_ix2 j⟩
    exact h0 h b z
  | n + 1, h => by
    funext j
    obtain ⟨b, z, rfl⟩ : ∃ (b : Fin 16) (z : Fin 1), j = ix2 b z := ⟨j 0, j 1, eq_ix2 j⟩
    rw [hs n h b z, col_accum comp f h0 hs n (Nat.lt_of_succ_lt h)]
    rfl

theorem mat_accum (comp : (n : ℕ) → n < cfg0.N → Vec Ideal S16x16 .f32) (f : Fin 16 → Fin 16 → Fin 262144 → EReal)
    (h0 : ∀ (h : 0 < cfg0.N) (b b' : Fin 16), comp 0 h (ix2 b b') = 0 + tile (f b b') 0)
    (hs : ∀ (n : ℕ) (h : n + 1 < cfg0.N) (b b' : Fin 16),
      comp (n + 1) h (ix2 b b') = comp n (Nat.lt_of_succ_lt h) (ix2 b b') + tile (f b b') (n + 1)) :
    ∀ (n : ℕ) (h : n < cfg0.N), comp n h = fun j => accum (tile (f (j 0) (j 1))) n
  | 0, h => by
    funext j
    obtain ⟨b, b', rfl⟩ : ∃ (b b' : Fin 16), j = ix2 b b' := ⟨j 0, j 1, eq_ix2 j⟩
    exact h0 h b b'
  | n + 1, h => by
    funext j
    obtain ⟨b, b', rfl⟩ : ∃ (b b' : Fin 16), j = ix2 b b' := ⟨j 0, j 1, eq_ix2 j⟩
    rw [hs n h b b', mat_accum comp f h0 hs n (Nat.lt_of_succ_lt h)]
    rfl

theorem acc5 (c : Dev nD) (n : ℕ) (h : n < cfg0.N) :
    (outsAt0 mI c n h).1 = fun j => accum (tile (fP mI c (j 0))) n :=
  col_accum (fun n h => (outsAt0 mI c n h).1) (fP mI c)
    (fun h b z => by
      show (outsAt0 mI c 0 h).1 (ix2 b z) = _
      rw [outs_zero]; dsimp only [step]
      refine (pay13_apply (xb0 mI c ⟨0, h⟩) _ b z).trans ?_
      rewrite [pay_zero_col, tileP_eq]; rfl)
    (fun n h b z => by
      show (outsAt0 mI c (n + 1) h).1 (ix2 b z) = _
      rw [outs_succ]; dsimp only [step]
      refine (pay13_apply (xb0 mI c ⟨n + 1, h⟩) _ b z).trans ?_
      rewrite [tileP_eq]; rfl) n h

theorem acc6 (c : Dev nD) (n : ℕ) (h : n < cfg0.N) :
    (outsAt0 mI c n h).2.1 = fun j => accum (tile (fG mI c (j 0))) n :=
  col_accum (fun n h => (outsAt0 mI c n h).2.1) (fG mI c)
    (fun h b z => by
      show (outsAt0 mI c 0 h).2.1 (ix2 b z) = _
      rw [outs_zero]; dsimp only [step]
      refine (pay14_apply (xb1 mI c ⟨0, h⟩) _ b z).trans ?_
      rewrite [pay2_zero, tileG_eq]; rfl)
    (fun n h b z => by
      show (outsAt0 mI c (n + 1) h).2.1 (ix2 b z) = _
      rw [outs_succ]; dsimp only [step]
      refine (pay14_apply (xb1 mI c ⟨n + 1, h⟩) _ b z).trans ?_
      rewrite [tileG_eq]; rfl) n h

theorem acc7 (c : Dev nD) (n : ℕ) (h : n < cfg0.N) :
    (outsAt0 mI c n h).2.2.1 = fun j => accum (tile (fPG mI c (j 0))) n :=
  col_accum (fun n h => (outsAt0 mI c n h).2.2.1) (fPG mI c)
    (fun h b z => by
      show (outsAt0 mI c 0 h).2.2.1 (ix2 b z) = _
      rw [outs_zero]; dsimp only [step]
      refine (pay17_apply (xb0 mI c ⟨0, h⟩) (xb1 mI c ⟨0, h⟩) _ b z).trans ?_
      rewrite [pay3_zero, tilePG_eq]; rfl)
    (fun n h b z => by
      show (outsAt0 mI c (n + 1) h).2.2.1 (ix2 b z) = _
      rw [outs_succ]; dsimp only [step]
      refine (pay17_apply (xb0 mI c ⟨n + 1, h⟩) (xb1 mI c ⟨n + 1, h⟩) _ b z).trans ?_
      rewrite [tilePG_eq]; rfl) n h

theorem acc8 (c : Dev nD) (n : ℕ) (h : n < cfg0.N) :
    (outsAt0 mI c n h).2.2.2.1 = fun j => accum (tile (fS1 mI c (j 0))) n :=
  col_accum (fun n h => (outsAt0 mI c n h).2.2.2.1) (fS1 mI c)
    (fun h b z => by
      show (outsAt0 mI c 0 h).2.2.2.1 (ix2 b z) = _
      rw [outs_zero]; dsimp only [step]
      refine (pay19_apply (xb2 mI c ⟨0, h⟩) _ b z).trans ?_
      rewrite [pay4_zero, tileS1_eq]; rfl)
    (fun n h b z => by
      show (outsAt0 mI c (n + 1) h).2.2.2.1 (ix2 b z) = _
      rw [outs_succ]; dsimp only [step]
      refine (pay19_apply (xb2 mI c ⟨n + 1, h⟩) _ b z).trans ?_
      rewrite [tileS1_eq]; rfl) n h

theorem acc9 (c : Dev nD) (n : ℕ) (h : n < cfg0.N) :
    (outsAt0 mI c n h).2.2.2.2.1 = fun j => accum (tile (fS2 mI c (j 0))) n :=
  col_accum (fun n h => (outsAt0 mI c n h).2.2.2.2.1) (fS2 mI c)
    (fun h b z => by
      show (outsAt0 mI c 0 h).2.2.2.2.1 (ix2 b z) = _
      rw [outs_zero]; dsimp only [step]
      refine (pay20_apply (xb3 mI c ⟨0, h⟩) _ b z).trans ?_
      rewrite [pay5_zero, tileS2_eq]; rfl)
    (fun n h b z => by
      show (outsAt0 mI c (n + 1) h).2.2.2.2.1 (ix2 b z) = _
      rw [outs_succ]; dsimp only [step]
      refine (pay20_apply (xb3 mI c ⟨n + 1, h⟩) _ b z).trans ?_
      rewrite [tileS2_eq]; rfl) n h

theorem acc10 (c : Dev nD) (n : ℕ) (h : n < cfg0.N) :
    (outsAt0 mI c n h).2.2.2.2.2.1 = fun j => accum (tile (fMD mI c (j 0))) n :=
  col_accum (fun n h => (outsAt0 mI c n h).2.2.2.2.2.1) (fMD mI c)
    (fun h b z => by
      show (outsAt0 mI c 0 h).2.2.2.2.2.1 (ix2 b z) = _
      rw [outs_zero]; dsimp only [step]
      refine (pay18_apply (xb2 mI c ⟨0, h⟩) (xb3 mI c ⟨0, h⟩) (xb4 mI c ⟨0, h⟩) _ b z).trans ?_
      rewrite [pay6_zero, tileMD_eq]; rfl)
    (fun n h b z => by
      show (outsAt0 mI c (n + 1) h).2.2.2.2.2.1 (ix2 b z) = _
      rw [outs_succ]; dsimp only [step]
      refine (pay18_apply (xb2 mI c ⟨n + 1, h⟩) (xb3 mI c ⟨n + 1, h⟩) (xb4 mI c ⟨n + 1, h⟩) _ b z).trans ?_
      rewrite [tileMD_eq]; rfl) n h

theorem acc11 (c : Dev nD) (n : ℕ) (h : n < cfg0.N) :
    (outsAt0 mI c n h).2.2.2.2.2.2 = fun j => accum (tile (fX mI c (j 0) (j 1))) n :=
  mat_accum (fun n h => (outsAt0 mI c n h).2.2.2.2.2.2) (fX mI c)
    (fun h b b' => by
      show (outsAt0 mI c 0 h).2.2.2.2.2.2 (ix2 b b') = _
      rw [outs_zero]; dsimp only [step]
      refine (pay21_apply (xb2 mI c ⟨0, h⟩) (xb3 mI c ⟨0, h⟩) _ b b').trans ?_
      rewrite [pay7_zero, tileX_eq]; rfl)
    (fun n h b b' => by
      show (outsAt0 mI c (n + 1) h).2.2.2.2.2.2 (ix2 b b') = _
      rw [outs_succ]; dsimp only [step]
      refine (pay21_apply (xb2 mI c ⟨n + 1, h⟩) (xb3 mI c ⟨n + 1, h⟩) _ b b').trans ?_
      rewrite [tileX_eq]; rfl) n h

end Cert.KernelIdeal.Fr

end
-- ==== Proof.KernelIdeal.Finals.lean ====
import proofs.«128507_j77738908057903_1_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem h15 : 15 < cfg0.N := by rw [show cfg0.N = 16 from N_0]; decide

-- Each accumulator's array ends at the accumulator's value after the last grid point.
abbrev res5 (c : Dev nD) : Buf (Elt F) ((c : Thread nD τ).loc main_v5_0) := (outsAt0 m c 15 h15).1

theorem flushed_eq5 (c : Dev nD) (t : Fin cfg0.N) (hf : (cfg0.win 5).flush t = true) :
    (dats m 0 c).flushed 5 t = ((cfg0.win 5).blk t).view.read (Elt F) (res5 m c) := by
  have hN : cfg0.N = 16 := N_0
  obtain rfl : t = t0_15 := Fin.ext (show t.val = 15 by have := (flush0_5 t).mp hf; have := t.isLt; omega)
  show (cfg0.win 5).cut (grid0.coords t0_15) ((dats m 0 c).after 5 t0_15) = _
  rw [after0_5]
  have hz' : (fun a => win0_5.index t0_15 a * main_v5_0.ty.shape.size a) = fun _ => 0 := funext fun a => by fin_cases a <;> decide
  exact (Memref.read_access_unit_zero (Elt F) main_v5_0 hz' (fun a => by rw [congrFun hz' a]; simp) (res5 m c)).symm

theorem final5 (c : Dev nD) : (dats m 0 c).arrAt 5 cfg0.N = res5 m c :=
  (dats m 0 c).arrAt_eq_of_cover 5 (res5 m c) (flushed_eq5 m c) fun i =>
    ⟨t0_15, (flush0_5 t0_15).mpr rfl, by
      show i ∈ ((View.whole main_v5_0).slice (win0_5.rect t0_15)).set
      rw [View.set_slice_whole, Rect.mem_set_unit]
      intro a
      obtain ⟨e0, e1⟩ := (by decide +kernel : ∀ a, win0_5.index t0_15 a * win0_5.size a = 0 ∧ win0_5.xsize (grid0.coords t0_15) a = S16x1.size a) a
      show win0_5.index t0_15 a * win0_5.size a ≤ (i a : Nat) ∧ (i a : Nat) < win0_5.index t0_15 a * win0_5.size a + win0_5.xsize (grid0.coords t0_15) a
      rw [e0, e1, Nat.zero_add]; exact ⟨Nat.zero_le _, (i a).isLt⟩⟩

abbrev res6 (c : Dev nD) : Buf (Elt F) ((c : Thread nD τ).loc main_v5_1) := (outsAt0 m c 15 h15).2.1

theorem flushed_eq6 (c : Dev nD) (t : Fin cfg0.N) (hf : (cfg0.win 6).flush t = true) :
    (dats m 0 c).flushed 6 t = ((cfg0.win 6).blk t).view.read (Elt F) (res6 m c) := by
  have hN : cfg0.N = 16 := N_0
  obtain rfl : t = t0_15 := Fin.ext (show t.val = 15 by have := (flush0_6 t).mp hf; have := t.isLt; omega)
  show (cfg0.win 6).cut (grid0.coords t0_15) ((dats m 0 c).after 6 t0_15) = _
  rw [after0_6]
  have hz' : (fun a => win0_6.index t0_15 a * main_v5_1.ty.shape.size a) = fun _ => 0 := funext fun a => by fin_cases a <;> decide
  exact (Memref.read_access_unit_zero (Elt F) main_v5_1 hz' (fun a => by rw [congrFun hz' a]; simp) (res6 m c)).symm

theorem final6 (c : Dev nD) : (dats m 0 c).arrAt 6 cfg0.N = res6 m c :=
  (dats m 0 c).arrAt_eq_of_cover 6 (res6 m c) (flushed_eq6 m c) fun i =>
    ⟨t0_15, (flush0_6 t0_15).mpr rfl, by
      show i ∈ ((View.whole main_v5_1).slice (win0_6.rect t0_15)).set
      rw [View.set_slice_whole, Rect.mem_set_unit]
      intro a
      obtain ⟨e0, e1⟩ := (by decide +kernel : ∀ a, win0_6.index t0_15 a * win0_6.size a = 0 ∧ win0_6.xsize (grid0.coords t0_15) a = S16x1.size a) a
      show win0_6.index t0_15 a * win0_6.size a ≤ (i a : Nat) ∧ (i a : Nat) < win0_6.index t0_15 a * win0_6.size a + win0_6.xsize (grid0.coords t0_15) a
      rw [e0, e1, Nat.zero_add]; exact ⟨Nat.zero_le _, (i a).isLt⟩⟩

abbrev res7 (c : Dev nD) : Buf (Elt F) ((c : Thread nD τ).loc main_v5_2) := (outsAt0 m c 15 h15).2.2.1

theorem flushed_eq7 (c : Dev nD) (t : Fin cfg0.N) (hf : (cfg0.win 7).flush t = true) :
    (dats m 0 c).flushed 7 t = ((cfg0.win 7).blk t).view.read (Elt F) (res7 m c) := by
  have hN : cfg0.N = 16 := N_0
  obtain rfl : t = t0_15 := Fin.ext (show t.val = 15 by have := (flush0_7 t).mp hf; have := t.isLt; omega)
  show (cfg0.win 7).cut (grid0.coords t0_15) ((dats m 0 c).after 7 t0_15) = _
  rw [after0_7]
  have hz' : (fun a => win0_7.index t0_15 a * main_v5_2.ty.shape.size a) = fun _ => 0 := funext fun a => by fin_cases a <;> decide
  exact (Memref.read_access_unit_zero (Elt F) main_v5_2 hz' (fun a => by rw [congrFun hz' a]; simp) (res7 m c)).symm

theorem final7 (c : Dev nD) : (dats m 0 c).arrAt 7 cfg0.N = res7 m c :=
  (dats m 0 c).arrAt_eq_of_cover 7 (res7 m c) (flushed_eq7 m c) fun i =>
    ⟨t0_15, (flush0_7 t0_15).mpr rfl, by
      show i ∈ ((View.whole main_v5_2).slice (win0_7.rect t0_15)).set
      rw [View.set_slice_whole, Rect.mem_set_unit]
      intro a
      obtain ⟨e0, e1⟩ := (by decide +kernel : ∀ a, win0_7.index t0_15 a * win0_7.size a = 0 ∧ win0_7.xsize (grid0.coords t0_15) a = S16x1.size a) a
      show win0_7.index t0_15 a * win0_7.size a ≤ (i a : Nat) ∧ (i a : Nat) < win0_7.index t0_15 a * win0_7.size a + win0_7.xsize (grid0.coords t0_15) a
      rw [e0, e1, Nat.zero_add]; exact ⟨Nat.zero_le _, (i a).isLt⟩⟩

abbrev res8 (c : Dev nD) : Buf (Elt F) ((c : Thread nD τ).loc main_v5_3) := (outsAt0 m c 15 h15).2.2.2.1

theorem flushed_eq8 (c : Dev nD) (t : Fin cfg0.N) (hf : (cfg0.win 8).flush t = true) :
    (dats m 0 c).flushed 8 t = ((cfg0.win 8).blk t).view.read (Elt F) (res8 m c) := by
  have hN : cfg0.N = 16 := N_0
  obtain rfl : t = t0_15 := Fin.ext (show t.val = 15 by have := (flush0_8 t).mp hf; have := t.isLt; omega)
  show (cfg0.win 8).cut (grid0.coords t0_15) ((dats m 0 c).after 8 t0_15) = _
  rw [after0_8]
  have hz' : (fun a => win0_8.index t0_15 a * main_v5_3.ty.shape.size a) = fun _ => 0 := funext fun a => by fin_cases a <;> decide
  exact (Memref.read_access_unit_zero (Elt F) main_v5_3 hz' (fun a => by rw [congrFun hz' a]; simp) (res8 m c)).symm

theorem final8 (c : Dev nD) : (dats m 0 c).arrAt 8 cfg0.N = res8 m c :=
  (dats m 0 c).arrAt_eq_of_cover 8 (res8 m c) (flushed_eq8 m c) fun i =>
    ⟨t0_15, (flush0_8 t0_15).mpr rfl, by
      show i ∈ ((View.whole main_v5_3).slice (win0_8.rect t0_15)).set
      rw [View.set_slice_whole, Rect.mem_set_unit]
      intro a
      obtain ⟨e0, e1⟩ := (by decide +kernel : ∀ a, win0_8.index t0_15 a * win0_8.size a = 0 ∧ win0_8.xsize (grid0.coords t0_15) a = S16x1.size a) a
      show win0_8.index t0_15 a * win0_8.size a ≤ (i a : Nat) ∧ (i a : Nat) < win0_8.index t0_15 a * win0_8.size a + win0_8.xsize (grid0.coords t0_15) a
      rw [e0, e1, Nat.zero_add]; exact ⟨Nat.zero_le _, (i a).isLt⟩⟩

abbrev res9 (c : Dev nD) : Buf (Elt F) ((c : Thread nD τ).loc main_v5_4) := (outsAt0 m c 15 h15).2.2.2.2.1

theorem flushed_eq9 (c : Dev nD) (t : Fin cfg0.N) (hf : (cfg0.win 9).flush t = true) :
    (dats m 0 c).flushed 9 t = ((cfg0.win 9).blk t).view.read (Elt F) (res9 m c) := by
  have hN : cfg0.N = 16 := N_0
  obtain rfl : t = t0_15 := Fin.ext (show t.val = 15 by have := (flush0_9 t).mp hf; have := t.isLt; omega)
  show (cfg0.win 9).cut (grid0.coords t0_15) ((dats m 0 c).after 9 t0_15) = _
  rw [after0_9]
  have hz' : (fun a => win0_9.index t0_15 a * main_v5_4.ty.shape.size a) = fun _ => 0 := funext fun a => by fin_cases a <;> decide
  exact (Memref.read_access_unit_zero (Elt F) main_v5_4 hz' (fun a => by rw [congrFun hz' a]; simp) (res9 m c)).symm

theorem final9 (c : Dev nD) : (dats m 0 c).arrAt 9 cfg0.N = res9 m c :=
  (dats m 0 c).arrAt_eq_of_cover 9 (res9 m c) (flushed_eq9 m c) fun i =>
    ⟨t0_15, (flush0_9 t0_15).mpr rfl, by
      show i ∈ ((View.whole main_v5_4).slice (win0_9.rect t0_15)).set
      rw [View.set_slice_whole, Rect.mem_set_unit]
      intro a
      obtain ⟨e0, e1⟩ := (by decide +kernel : ∀ a, win0_9.index t0_15 a * win0_9.size a = 0 ∧ win0_9.xsize (grid0.coords t0_15) a = S16x1.size a) a
      show win0_9.index t0_15 a * win0_9.size a ≤ (i a : Nat) ∧ (i a : Nat) < win0_9.index t0_15 a * win0_9.size a + win0_9.xsize (grid0.coords t0_15) a
      rw [e0, e1, Nat.zero_add]; exact ⟨Nat.zero_le _, (i a).isLt⟩⟩

abbrev res10 (c : Dev nD) : Buf (Elt F) ((c : Thread nD τ).loc main_v5_5) := (outsAt0 m c 15 h15).2.2.2.2.2.1

theorem flushed_eq10 (c : Dev nD) (t : Fin cfg0.N) (hf : (cfg0.win 10).flush t = true) :
    (dats m 0 c).flushed 10 t = ((cfg0.win 10).blk t).view.read (Elt F) (res10 m c) := by
  have hN : cfg0.N = 16 := N_0
  obtain rfl : t = t0_15 := Fin.ext (show t.val = 15 by have := (flush0_10 t).mp hf; have := t.isLt; omega)
  show (cfg0.win 10).cut (grid0.coords t0_15) ((dats m 0 c).after 10 t0_15) = _
  rw [after0_10]
  have hz' : (fun a => win0_10.index t0_15 a * main_v5_5.ty.shape.size a) = fun _ => 0 := funext fun a => by fin_cases a <;> decide
  exact (Memref.read_access_unit_zero (Elt F) main_v5_5 hz' (fun a => by rw [congrFun hz' a]; simp) (res10 m c)).symm

theorem final10 (c : Dev nD) : (dats m 0 c).arrAt 10 cfg0.N = res10 m c :=
  (dats m 0 c).arrAt_eq_of_cover 10 (res10 m c) (flushed_eq10 m c) fun i =>
    ⟨t0_15, (flush0_10 t0_15).mpr rfl, by
      show i ∈ ((View.whole main_v5_5).slice (win0_10.rect t0_15)).set
      rw [View.set_slice_whole, Rect.mem_set_unit]
      intro a
      obtain ⟨e0, e1⟩ := (by decide +kernel : ∀ a, win0_10.index t0_15 a * win0_10.size a = 0 ∧ win0_10.xsize (grid0.coords t0_15) a = S16x1.size a) a
      show win0_10.index t0_15 a * win0_10.size a ≤ (i a : Nat) ∧ (i a : Nat) < win0_10.index t0_15 a * win0_10.size a + win0_10.xsize (grid0.coords t0_15) a
      rw [e0, e1, Nat.zero_add]; exact ⟨Nat.zero_le _, (i a).isLt⟩⟩

abbrev res11 (c : Dev nD) : Buf (Elt F) ((c : Thread nD τ).loc main_v5_6) := (outsAt0 m c 15 h15).2.2.2.2.2.2

theorem flushed_eq11 (c : Dev nD) (t : Fin cfg0.N) (hf : (cfg0.win 11).flush t = true) :
    (dats m 0 c).flushed 11 t = ((cfg0.win 11).blk t).view.read (Elt F) (res11 m c) := by
  have hN : cfg0.N = 16 := N_0
  obtain rfl : t = t0_15 := Fin.ext (show t.val = 15 by have := (flush0_11 t).mp hf; have := t.isLt; omega)
  show (cfg0.win 11).cut (grid0.coords t0_15) ((dats m 0 c).after 11 t0_15) = _
  rw [after0_11]
  have hz' : (fun a => win0_11.index t0_15 a * main_v5_6.ty.shape.size a) = fun _ => 0 := funext fun a => by fin_cases a <;> decide
  exact (Memref.read_access_unit_zero (Elt F) main_v5_6 hz' (fun a => by rw [congrFun hz' a]; simp) (res11 m c)).symm

theorem final11 (c : Dev nD) : (dats m 0 c).arrAt 11 cfg0.N = res11 m c :=
  (dats m 0 c).arrAt_eq_of_cover 11 (res11 m c) (flushed_eq11 m c) fun i =>
    ⟨t0_15, (flush0_11 t0_15).mpr rfl, by
      show i ∈ ((View.whole main_v5_6).slice (win0_11.rect t0_15)).set
      rw [View.set_slice_whole, Rect.mem_set_unit]
      intro a
      obtain ⟨e0, e1⟩ := (by decide +kernel : ∀ a, win0_11.index t0_15 a * win0_11.size a = 0 ∧ win0_11.xsize (grid0.coords t0_15) a = S16x16.size a) a
      show win0_11.index t0_15 a * win0_11.size a ≤ (i a : Nat) ∧ (i a : Nat) < win0_11.index t0_15 a * win0_11.size a + win0_11.xsize (grid0.coords t0_15) a
      rw [e0, e1, Nat.zero_add]; exact ⟨Nat.zero_le _, (i a).isLt⟩⟩

end Cert.KernelIdeal.Fr

end
-- ==== Proof.KernelIdeal.Tail.lean ====
import proofs.«128507_j77738908057903_1_alg».proof.Proof.KernelIdeal.Kit
import proofs.«128507_j77738908057903_1_alg».proof.Proof.Spec
import proofs.«128507_j77738908057903_1_alg».proof.Proof.TileMath
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ)

set_option maxHeartbeats 40000000 in
-- The operations after the region compute the specification's tail of whatever the seven arrays hold.
theorem after_dice (W : Valuation τ sig (Elt Ideal)) :
    (StableHlo.after hostOps1 W (Proc.devRef .tc main_v14) : Vec Ideal Spec.Sc .f32)
      = Spec.dice
          (Host.reduceAdd (F := Ideal) (W (Proc.devRef .tc main_v5_0) : Vec Ideal S16x1 .f32) (constant (F := Ideal) Spec.Sc .f32 0x00000000#32) Spec.red_C1_Sc Spec.hSc)
          (Host.reduceAdd (F := Ideal) (W (Proc.devRef .tc main_v5_1) : Vec Ideal S16x1 .f32) (constant (F := Ideal) Spec.Sc .f32 0x00000000#32) Spec.red_C1_Sc Spec.hSc)
          (Host.reduceAdd (F := Ideal) (W (Proc.devRef .tc main_v5_2) : Vec Ideal S16x1 .f32) (constant (F := Ideal) Spec.Sc .f32 0x00000000#32) Spec.red_C1_Sc Spec.hSc) := by
  after_results_simp
  unfold Spec.dice
  rfl

set_option maxHeartbeats 40000000 in
theorem after_zero (W : Valuation τ sig (Elt Ideal)) :
    (StableHlo.after hostOps1 W (Proc.devRef .tc main_cst_19) : Vec Ideal Spec.Sc .f32) = Spec.zero := by
  after_results_simp
  rfl

set_option maxHeartbeats 40000000 in
theorem after_contrast (W : Valuation τ sig (Elt Ideal)) :
    (StableHlo.after hostOps1 W (Proc.devRef .tc main_v57) : Vec Ideal Spec.Sc .f32)
      = Spec.contrast
          (shapeCast Spec.V16 (W (Proc.devRef .tc main_v5_3) : Vec Ideal S16x1 .f32) Spec.cast_C1_V16)
          (shapeCast Spec.V16 (W (Proc.devRef .tc main_v5_4) : Vec Ideal S16x1 .f32) Spec.cast_C1_V16)
          (shapeCast Spec.V16 (W (Proc.devRef .tc main_v5_5) : Vec Ideal S16x1 .f32) Spec.cast_C1_V16)
          (W (Proc.devRef .tc main_v5_6) : Vec Ideal S16x16 .f32) := by
  after_results_simp
  unfold Spec.contrast Spec.simPos Spec.simNeg
  rfl

set_option maxHeartbeats 40000000 in
theorem after_total (W : Valuation τ sig (Elt Ideal)) :
    (StableHlo.after hostOps1 W (Proc.devRef .tc main_v60) : Vec Ideal Spec.Sc .f32)
      = Spec.total
          (Host.reduceAdd (F := Ideal) (W (Proc.devRef .tc main_v5_0) : Vec Ideal S16x1 .f32) (constant (F := Ideal) Spec.Sc .f32 0x00000000#32) Spec.red_C1_Sc Spec.hSc)
          (Host.reduceAdd (F := Ideal) (W (Proc.devRef .tc main_v5_1) : Vec Ideal S16x1 .f32) (constant (F := Ideal) Spec.Sc .f32 0x00000000#32) Spec.red_C1_Sc Spec.hSc)
          (Host.reduceAdd (F := Ideal) (W (Proc.devRef .tc main_v5_2) : Vec Ideal S16x1 .f32) (constant (F := Ideal) Spec.Sc .f32 0x00000000#32) Spec.red_C1_Sc Spec.hSc)
          (shapeCast Spec.V16 (W (Proc.devRef .tc main_v5_3) : Vec Ideal S16x1 .f32) Spec.cast_C1_V16)
          (shapeCast Spec.V16 (W (Proc.devRef .tc main_v5_4) : Vec Ideal S16x1 .f32) Spec.cast_C1_V16)
          (shapeCast Spec.V16 (W (Proc.devRef .tc main_v5_5) : Vec Ideal S16x1 .f32) Spec.cast_C1_V16)
          (W (Proc.devRef .tc main_v5_6) : Vec Ideal S16x16 .f32) := by
  after_results_simp
  unfold Spec.total Spec.dice Spec.contrast Spec.simPos Spec.simNeg
  rfl

theorem after_dice_of (W : Valuation τ sig (Elt Ideal)) (r5 r6 r7 : Vec Ideal S16x1 .f32)
    (h5 : (W (Proc.devRef .tc main_v5_0) : Vec Ideal S16x1 .f32) = r5) (h6 : (W (Proc.devRef .tc main_v5_1) : Vec Ideal S16x1 .f32) = r6) (h7 : (W (Proc.devRef .tc main_v5_2) : Vec Ideal S16x1 .f32) = r7) :
    (StableHlo.after hostOps1 W (Proc.devRef .tc main_v14) : Vec Ideal Spec.Sc .f32)
      = Spec.dice
          (Host.reduceAdd (F := Ideal) r5 (constant (F := Ideal) Spec.Sc .f32 0x00000000#32) Spec.red_C1_Sc Spec.hSc)
          (Host.reduceAdd (F := Ideal) r6 (constant (F := Ideal) Spec.Sc .f32 0x00000000#32) Spec.red_C1_Sc Spec.hSc)
          (Host.reduceAdd (F := Ideal) r7 (constant (F := Ideal) Spec.Sc .f32 0x00000000#32) Spec.red_C1_Sc Spec.hSc) := by
  subst h5 h6 h7; exact after_dice W

theorem after_contrast_of (W : Valuation τ sig (Elt Ideal)) (r8 r9 r10 : Vec Ideal S16x1 .f32) (r11 : Vec Ideal S16x16 .f32)
    (h8 : (W (Proc.devRef .tc main_v5_3) : Vec Ideal S16x1 .f32) = r8) (h9 : (W (Proc.devRef .tc main_v5_4) : Vec Ideal S16x1 .f32) = r9) (h10 : (W (Proc.devRef .tc main_v5_5) : Vec Ideal S16x1 .f32) = r10) (h11 : (W (Proc.devRef .tc main_v5_6) : Vec Ideal S16x16 .f32) = r11) :
    (StableHlo.after hostOps1 W (Proc.devRef .tc main_v57) : Vec Ideal Spec.Sc .f32)
      = Spec.contrast
          (shapeCast Spec.V16 r8 Spec.cast_C1_V16)
          (shapeCast Spec.V16 r9 Spec.cast_C1_V16)
          (shapeCast Spec.V16 r10 Spec.cast_C1_V16)
          r11 := by
  subst h8 h9 h10 h11; exact after_contrast W

theorem after_total_of (W : Valuation τ sig (Elt Ideal)) (r5 r6 r7 r8 r9 r10 : Vec Ideal S16x1 .f32) (r11 : Vec Ideal S16x16 .f32)
    (h5 : (W (Proc.devRef .tc main_v5_0) : Vec Ideal S16x1 .f32) = r5) (h6 : (W (Proc.devRef .tc main_v5_1) : Vec Ideal S16x1 .f32) = r6) (h7 : (W (Proc.devRef .tc main_v5_2) : Vec Ideal S16x1 .f32) = r7)
    (h8 : (W (Proc.devRef .tc main_v5_3) : Vec Ideal S16x1 .f32) = r8) (h9 : (W (Proc.devRef .tc main_v5_4) : Vec Ideal S16x1 .f32) = r9) (h10 : (W (Proc.devRef .tc main_v5_5) : Vec Ideal S16x1 .f32) = r10) (h11 : (W (Proc.devRef .tc main_v5_6) : Vec Ideal S16x16 .f32) = r11) :
    (StableHlo.after hostOps1 W (Proc.devRef .tc main_v60) : Vec Ideal Spec.Sc .f32)
      = Spec.total
          (Host.reduceAdd (F := Ideal) r5 (constant (F := Ideal) Spec.Sc .f32 0x00000000#32) Spec.red_C1_Sc Spec.hSc)
          (Host.reduceAdd (F := Ideal) r6 (constant (F := Ideal) Spec.Sc .f32 0x00000000#32) Spec.red_C1_Sc Spec.hSc)
          (Host.reduceAdd (F := Ideal) r7 (constant (F := Ideal) Spec.Sc .f32 0x00000000#32) Spec.red_C1_Sc Spec.hSc)
          (shapeCast Spec.V16 r8 Spec.cast_C1_V16)
          (shapeCast Spec.V16 r9 Spec.cast_C1_V16)
          (shapeCast Spec.V16 r10 Spec.cast_C1_V16)
          r11 := by
  subst h5 h6 h7 h8 h9 h10 h11; exact after_total W

set_option maxHeartbeats 40000000 in
-- The four results, from the seven arrays as the region leaves them.
theorem tail_total (dats : (p : Fin 1) → (c : Dev nD) → Dat τ (Elt Ideal) Unit ℕ (UR sig nD τ) ℕ (cfgs p) c) (c : Dev nD) :
    (Pipeline.afterTail₀ cfgs dats 0 (V0 m) [hostOps1] c main_v60 : Vec Ideal Spec.Sc .f32)
      = Spec.total
          (Host.reduceAdd (F := Ideal) ((dats 0 c).arrAt 5 cfg0.N : Vec Ideal S16x1 .f32) (constant (F := Ideal) Spec.Sc .f32 0x00000000#32) Spec.red_C1_Sc Spec.hSc)
          (Host.reduceAdd (F := Ideal) ((dats 0 c).arrAt 6 cfg0.N : Vec Ideal S16x1 .f32) (constant (F := Ideal) Spec.Sc .f32 0x00000000#32) Spec.red_C1_Sc Spec.hSc)
          (Host.reduceAdd (F := Ideal) ((dats 0 c).arrAt 7 cfg0.N : Vec Ideal S16x1 .f32) (constant (F := Ideal) Spec.Sc .f32 0x00000000#32) Spec.red_C1_Sc Spec.hSc)
          (shapeCast Spec.V16 ((dats 0 c).arrAt 8 cfg0.N : Vec Ideal S16x1 .f32) Spec.cast_C1_V16)
          (shapeCast Spec.V16 ((dats 0 c).arrAt 9 cfg0.N : Vec Ideal S16x1 .f32) Spec.cast_C1_V16)
          (shapeCast Spec.V16 ((dats 0 c).arrAt 10 cfg0.N : Vec Ideal S16x1 .f32) Spec.cast_C1_V16)
          ((dats 0 c).arrAt 11 cfg0.N : Vec Ideal S16x16 .f32) := by
  unfold Pipeline.afterTail₀
  simp only [List.flatten_cons, List.flatten_nil, List.append_nil]
  exact after_total_of _ _ _ _ _ _ _ _ (Pipeline.withArrays_arr spec0 launch0.win.arr_inj c _ _ 5)
    (Pipeline.withArrays_arr spec0 launch0.win.arr_inj c _ _ 6)
    (Pipeline.withArrays_arr spec0 launch0.win.arr_inj c _ _ 7)
    (Pipeline.withArrays_arr spec0 launch0.win.arr_inj c _ _ 8)
    (Pipeline.withArrays_arr spec0 launch0.win.arr_inj c _ _ 9)
    (Pipeline.withArrays_arr spec0 launch0.win.arr_inj c _ _ 10)
    (Pipeline.withArrays_arr spec0 launch0.win.arr_inj c _ _ 11)

set_option maxHeartbeats 40000000 in
theorem tail_dice (dats : (p : Fin 1) → (c : Dev nD) → Dat τ (Elt Ideal) Unit ℕ (UR sig nD τ) ℕ (cfgs p) c) (c : Dev nD) :
    (Pipeline.afterTail₀ cfgs dats 0 (V0 m) [hostOps1] c main_v14 : Vec Ideal Spec.Sc .f32)
      = Spec.dice
          (Host.reduceAdd (F := Ideal) ((dats 0 c).arrAt 5 cfg0.N : Vec Ideal S16x1 .f32) (constant (F := Ideal) Spec.Sc .f32 0x00000000#32) Spec.red_C1_Sc Spec.hSc)
          (Host.reduceAdd (F := Ideal) ((dats 0 c).arrAt 6 cfg0.N : Vec Ideal S16x1 .f32) (constant (F := Ideal) Spec.Sc .f32 0x00000000#32) Spec.red_C1_Sc Spec.hSc)
          (Host.reduceAdd (F := Ideal) ((dats 0 c).arrAt 7 cfg0.N : Vec Ideal S16x1 .f32) (constant (F := Ideal) Spec.Sc .f32 0x00000000#32) Spec.red_C1_Sc Spec.hSc) := by
  unfold Pipeline.afterTail₀
  simp only [List.flatten_cons, List.flatten_nil, List.append_nil]
  exact after_dice_of _ _ _ _ (Pipeline.withArrays_arr spec0 launch0.win.arr_inj c _ _ 5)
    (Pipeline.withArrays_arr spec0 launch0.win.arr_inj c _ _ 6)
    (Pipeline.withArrays_arr spec0 launch0.win.arr_inj c _ _ 7)

set_option maxHeartbeats 40000000 in
theorem tail_zero (dats : (p : Fin 1) → (c : Dev nD) → Dat τ (Elt Ideal) Unit ℕ (UR sig nD τ) ℕ (cfgs p) c) (c : Dev nD) :
    (Pipeline.afterTail₀ cfgs dats 0 (V0 m) [hostOps1] c main_cst_19 : Vec Ideal Spec.Sc .f32) = Spec.zero := by
  unfold Pipeline.afterTail₀
  simp only [List.flatten_cons, List.flatten_nil, List.append_nil]
  exact after_zero _

set_option maxHeartbeats 40000000 in
theorem tail_contrast (dats : (p : Fin 1) → (c : Dev nD) → Dat τ (Elt Ideal) Unit ℕ (UR sig nD τ) ℕ (cfgs p) c) (c : Dev nD) :
    (Pipeline.afterTail₀ cfgs dats 0 (V0 m) [hostOps1] c main_v57 : Vec Ideal Spec.Sc .f32)
      = Spec.contrast
          (shapeCast Spec.V16 ((dats 0 c).arrAt 8 cfg0.N : Vec Ideal S16x1 .f32) Spec.cast_C1_V16)
          (shapeCast Spec.V16 ((dats 0 c).arrAt 9 cfg0.N : Vec Ideal S16x1 .f32) Spec.cast_C1_V16)
          (shapeCast Spec.V16 ((dats 0 c).arrAt 10 cfg0.N : Vec Ideal S16x1 .f32) Spec.cast_C1_V16)
          ((dats 0 c).arrAt 11 cfg0.N : Vec Ideal S16x16 .f32) := by
  unfold Pipeline.afterTail₀
  simp only [List.flatten_cons, List.flatten_nil, List.append_nil]
  exact after_contrast_of _ _ _ _ _ (Pipeline.withArrays_arr spec0 launch0.win.arr_inj c _ _ 8)
    (Pipeline.withArrays_arr spec0 launch0.win.arr_inj c _ _ 9)
    (Pipeline.withArrays_arr spec0 launch0.win.arr_inj c _ _ 10)
    (Pipeline.withArrays_arr spec0 launch0.win.arr_inj c _ _ 11)

end Cert.KernelIdeal.Fr

end
-- ==== Proof.KernelIdeal.Run.lean ====
import proofs.«128507_j77738908057903_1_alg».proof.Proof.KernelIdeal.Accum
import proofs.«128507_j77738908057903_1_alg».proof.Proof.KernelIdeal.Finals
import proofs.«128507_j77738908057903_1_alg».proof.Proof.KernelIdeal.Tail

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.TileMath
open scoped BigOperators

variable (mI : (ℓ : Loc nD τ sig) → Buf (Elt Ideal) ℓ)

theorem res5_eq (c : Dev nD) : res5 mI c = Spec.colP (a0 mI c) := by
  show (outsAt0 mI c 15 h15).1 = _
  rw [acc5]; funext j; rw [accum_tile]; rfl

theorem res6_eq (c : Dev nD) : res6 mI c = Spec.colG (a1 mI c) := by
  show (outsAt0 mI c 15 h15).2.1 = _
  rw [acc6]; funext j; rw [accum_tile]; rfl

theorem res7_eq (c : Dev nD) : res7 mI c = Spec.colPG (a0 mI c) (a1 mI c) := by
  show (outsAt0 mI c 15 h15).2.2.1 = _
  rw [acc7]; funext j; rw [accum_tile]; rfl

theorem res8_eq (c : Dev nD) : res8 mI c = Spec.colS1 (a2 mI c) := by
  show (outsAt0 mI c 15 h15).2.2.2.1 = _
  rw [acc8]; funext j; rw [accum_tile]; rfl

theorem res9_eq (c : Dev nD) : res9 mI c = Spec.colS2 (a3 mI c) := by
  show (outsAt0 mI c 15 h15).2.2.2.2.1 = _
  rw [acc9]; funext j; rw [accum_tile]; rfl

theorem res10_eq (c : Dev nD) : res10 mI c = Spec.colMD (a2 mI c) (a3 mI c) (a4 mI c) := by
  show (outsAt0 mI c 15 h15).2.2.2.2.2.1 = _
  rw [acc10]; funext j; rw [accum_tile]; rfl

theorem res11_eq (c : Dev nD) : res11 mI c = Spec.gramM (a2 mI c) (a3 mI c) := by
  show (outsAt0 mI c 15 h15).2.2.2.2.2.2 = _
  rw [acc11]; funext j; rw [accum_tile]; rfl

theorem total_eq (c : Dev nD) :
    (Pipeline.afterTail₀ cfgs (dats mI) 0 (V0 mI) [hostOps1] c main_v60 : Vec Ideal Spec.Sc .f32) = Spec.total (Spec.vP (a0 mI c)) (Spec.vG (a1 mI c)) (Spec.vPG (a0 mI c) (a1 mI c)) (Spec.vS1 (a2 mI c)) (Spec.vS2 (a3 mI c)) (Spec.vMD (a2 mI c) (a3 mI c) (a4 mI c)) (Spec.gramM (a2 mI c) (a3 mI c)) := by
  rw [tail_total mI (dats mI) c, final5, final6, final7, final8, final9, final10, final11, res5_eq, res6_eq, res7_eq, res8_eq, res9_eq, res10_eq, res11_eq,
    reduce_colP, reduce_colG, reduce_colPG, cast_colS1, cast_colS2, cast_colMD]

theorem dice_eq (c : Dev nD) :
    (Pipeline.afterTail₀ cfgs (dats mI) 0 (V0 mI) [hostOps1] c main_v14 : Vec Ideal Spec.Sc .f32) = Spec.dice (Spec.vP (a0 mI c)) (Spec.vG (a1 mI c)) (Spec.vPG (a0 mI c) (a1 mI c)) := by
  rw [tail_dice mI (dats mI) c, final5, final6, final7, res5_eq, res6_eq, res7_eq, reduce_colP, reduce_colG, reduce_colPG]

theorem contrast_eq (c : Dev nD) :
    (Pipeline.afterTail₀ cfgs (dats mI) 0 (V0 mI) [hostOps1] c main_v57 : Vec Ideal Spec.Sc .f32) = Spec.contrast (Spec.vS1 (a2 mI c)) (Spec.vS2 (a3 mI c)) (Spec.vMD (a2 mI c) (a3 mI c) (a4 mI c)) (Spec.gramM (a2 mI c) (a3 mI c)) := by
  rw [tail_contrast mI (dats mI) c, final8, final9, final10, final11, res8_eq, res9_eq, res10_eq, res11_eq, cast_colS1, cast_colS2, cast_colMD]

set_option maxHeartbeats 40000000 in
theorem kernel_run (ρ : Dev nD → PrngReg) :
    θ_run (defs (F := Ideal)) (onTc (τ := τ) (main (F := Ideal))) ⟨mI, fun _ => 0, ρ⟩ fun r => ∀ c : Dev nD,
      r.2.mem ((c.tc : Thread nD τ).loc main_v60) = Spec.total (Spec.vP (a0 mI c)) (Spec.vG (a1 mI c)) (Spec.vPG (a0 mI c) (a1 mI c)) (Spec.vS1 (a2 mI c)) (Spec.vS2 (a3 mI c)) (Spec.vMD (a2 mI c) (a3 mI c) (a4 mI c)) (Spec.gramM (a2 mI c) (a3 mI c))
      ∧ r.2.mem ((c.tc : Thread nD τ).loc main_v14) = Spec.dice (Spec.vP (a0 mI c)) (Spec.vG (a1 mI c)) (Spec.vPG (a0 mI c) (a1 mI c))
      ∧ r.2.mem ((c.tc : Thread nD τ).loc main_cst_19) = Spec.zero
      ∧ r.2.mem ((c.tc : Thread nD τ).loc main_v57) = Spec.contrast (Spec.vS1 (a2 mI c)) (Spec.vS2 (a3 mI c)) (Spec.vMD (a2 mI c) (a3 mI c) (a4 mI c)) (Spec.gramM (a2 mI c) (a3 mI c))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4) :=
  (θ_run defs _ _).mono (fun _ h c => ⟨
    ((h c).2 main_v60 (Pipeline.mem_restRefs_of main_v60 (by decide) (by decide))).trans (total_eq mI c),
    ((h c).2 main_v14 (Pipeline.mem_restRefs_of main_v14 (by decide) (by decide))).trans (dice_eq mI c),
    ((h c).2 main_cst_19 (Pipeline.mem_restRefs_of main_cst_19 (by decide) (by decide))).trans (tail_zero mI (dats mI) c),
    ((h c).2 main_v57 (Pipeline.mem_restRefs_of main_v57 (by decide) (by decide))).trans (contrast_eq mI c),
    args_kept mI (dats mI) h c⟩)
    (run_main mI ρ)

end Cert.KernelIdeal.Fr

end
-- ==== Proof.RefValue.lean ====
import proofs.«128507_j77738908057903_1_alg».proof.Proof.Gen.ReferenceIdeal.Run
import proofs.«128507_j77738908057903_1_alg».proof.Proof.Gen.ReferenceIdeal.Read
import proofs.«128507_j77738908057903_1_alg».proof.Proof.Spec
import Idealize.ShloMosaic.Lib.IdealHost
import Mathlib.Algebra.BigOperators.Group.Finset.Defs
import Mathlib.Algebra.BigOperators.Group.Finset.Basic
import Mathlib.Data.Fintype.BigOperators

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

-- The reference's three logistic stages are the specification's.
theorem sg_v5 (a : Spec.A4.Idx → EReal) (i : Spec.A4.Idx) : val_main_v5 (F := Ideal) a i = Spec.sg (a i) := by
  rw [val_main_v5_apply, val_main_v4_apply, val_main_cst_0_apply, val_main_v3_apply, val_main_v2_apply, val_main_cst_apply,
    val_main_v1_apply, val_main_v0_apply]
  simp only [Ideal.ofBits_def, Ideal.ofBits_one_f32]
  rfl

theorem sg_v23 (a : Spec.A4.Idx → EReal) (i : Spec.A4.Idx) : val_main_v23 (F := Ideal) a i = Spec.sg (a i) := by
  rw [val_main_v23_apply, val_main_v22_apply, val_main_cst_9_apply, val_main_v21_apply, val_main_v20_apply, val_main_cst_8_apply,
    val_main_v19_apply, val_main_v18_apply]
  simp only [Ideal.ofBits_def, Ideal.ofBits_one_f32]
  rfl

theorem sg_v29 (a : Spec.A4.Idx → EReal) (i : Spec.A4.Idx) : val_main_v29 (F := Ideal) a i = Spec.sg (a i) := by
  rw [val_main_v29_apply, val_main_v28_apply, val_main_cst_11_apply, val_main_v27_apply, val_main_v26_apply, val_main_cst_10_apply,
    val_main_v25_apply, val_main_v24_apply]
  simp only [Ideal.ofBits_def, Ideal.ofBits_one_f32]
  rfl

theorem pix_v6 (j : S4194304.Idx) :
    idx_main_v6 j = Spec.pix ⟨(j 0).val / 262144, by have h0 : (j 0).val < 4194304 := (j 0).isLt; omega⟩
      ⟨(j 0).val % 262144, Nat.mod_lt _ (by norm_num)⟩ := by
  have h0 : (j 0).val < 4194304 := (j 0).isLt
  funext a
  match a with
  | ⟨0, _⟩ => rfl
  | ⟨1, _⟩ => rfl
  | ⟨2, _⟩ => exact Fin.ext (by show (j 0).val / 512 % 512 = (j 0).val % 262144 / 512; omega)
  | ⟨3, _⟩ => exact Fin.ext (by show (j 0).val % 512 = (j 0).val % 262144 % 512; omega)

theorem pix_v40 (j : S16x262144.Idx) : idx_main_v40 j = Spec.pix (j 0) (j 1) := by
  have h0 : (j 0).val < 16 := (j 0).isLt
  have h1 : (j 1).val < 262144 := (j 1).isLt
  funext a
  match a with
  | ⟨0, _⟩ => exact Fin.ext (by show ((j 0).val * 262144 + (j 1).val) / 262144 = (j 0).val; omega)
  | ⟨1, _⟩ => rfl
  | ⟨2, _⟩ => exact Fin.ext (by show ((j 0).val * 262144 + (j 1).val) / 512 % 512 = (j 1).val / 512; omega)
  | ⟨3, _⟩ => exact Fin.ext (by show ((j 0).val * 262144 + (j 1).val) % 512 = (j 1).val % 512; omega)

def flatEquiv : S4194304.Idx ≃ Fin 16 × Fin 262144 where
  toFun j := (⟨(j 0).val / 262144, by have h0 : (j 0).val < 4194304 := (j 0).isLt; omega⟩, ⟨(j 0).val % 262144, Nat.mod_lt _ (by norm_num)⟩)
  invFun p := ix1 ⟨p.1.val * 262144 + p.2.val, by have h0 := p.1.isLt; have h1 := p.2.isLt; show p.1.val * 262144 + p.2.val < 4194304; omega⟩
  left_inv j := by
    funext a
    match a with
    | ⟨0, _⟩ => exact Fin.ext (by show (j 0).val / 262144 * 262144 + (j 0).val % 262144 = (j 0).val; omega)
  right_inv p := by
    have h0 : p.1.val < 16 := p.1.isLt
    have h1 : p.2.val < 262144 := p.2.isLt
    refine Prod.ext (Fin.ext ?_) (Fin.ext ?_)
    · show (p.1.val * 262144 + p.2.val) / 262144 = p.1.val; omega
    · show (p.1.val * 262144 + p.2.val) % 262144 = p.2.val; omega

theorem sum_flat (f : Spec.A4.Idx → EReal) :
    ∑ j : S4194304.Idx, f (idx_main_v6 j) = ∑ b : Fin 16, ∑ q : Fin 262144, f (Spec.pix b q) := by
  rw [← Fintype.sum_prod_type (f := fun p : Fin 16 × Fin 262144 => f (Spec.pix p.1 p.2))]
  exact Fintype.sum_equiv flatEquiv _ _ fun j => congrArg f (pix_v6 j)

-- A sum over an image's three inner axes is the sum over its 262144 pixels.
theorem sum_row (h : S16x1x512x512.ReducesTo [1, 2, 3] S16) (x : Spec.A4.Idx → EReal) (i : S16.Idx) :
    ∑ p ∈ Finset.univ.filter (fun p => h.drop p = i), x p = ∑ q : Fin 262144, x (Spec.pix (i 0) q) := by
  have linv : ∀ p ∈ Finset.univ.filter (fun p : S16x1x512x512.Idx => h.drop p = i),
      Spec.pix (i 0) (⟨(p 2).val * 512 + (p 3).val, by
        have h2 : (p 2).val < 512 := (p 2).isLt
        have h3 : (p 3).val < 512 := (p 3).isLt
        omega⟩ : Fin 262144) = p := by
    intro p hp
    have hd : h.drop p = i := (Finset.mem_filter.mp hp).2
    have e0 : (i 0).val = (p 0).val := by
      rw [← hd]; exact Shape.ReducesTo.drop_apply_val_of_eq h p 0 0
    have h1 : (p 1).val < 1 := (p 1).isLt
    have h2 : (p 2).val < 512 := (p 2).isLt
    have h3 : (p 3).val < 512 := (p 3).isLt
    funext a
    match a with
    | ⟨0, _⟩ => exact Fin.ext e0
    | ⟨1, _⟩ => exact Fin.ext (by show 0 = (p 1).val; omega)
    | ⟨2, _⟩ => exact Fin.ext (by show ((p 2).val * 512 + (p 3).val) / 512 = (p 2).val; omega)
    | ⟨3, _⟩ => exact Fin.ext (by show ((p 2).val * 512 + (p 3).val) % 512 = (p 3).val; omega)
  refine Finset.sum_nbij' (fun p => (⟨(p 2).val * 512 + (p 3).val, by
        have h2 : (p 2).val < 512 := (p 2).isLt
        have h3 : (p 3).val < 512 := (p 3).isLt
        omega⟩ : Fin 262144)) (fun q => Spec.pix (i 0) q) (fun _ _ => Finset.mem_univ _) ?_ linv ?_
    (fun p hp => congrArg x (linv p hp).symm)
  · intro q _
    refine Finset.mem_filter.mpr ⟨Finset.mem_univ _, ?_⟩
    funext b
    match b with
    | ⟨0, _⟩ => exact Fin.ext (Shape.ReducesTo.drop_apply_val_of_eq h (Spec.pix (i 0) q) 0 0)
  · intro q _
    exact Fin.ext (by show q.val / 512 * 512 + q.val % 512 = q.val; omega)

-- Each of the reference's seven reductions is the specification's.
theorem v12_eq (a0 : Spec.A4.Idx → EReal) : val_main_v12 (F := Ideal) a0 = Spec.vP a0 := by
  funext i
  rw [val_main_v12_apply, val_main_cst_4_apply]
  simp only [Ideal.ofBits_def, Ideal.ofBits_zero_f32, zero_add]
  show _ = Spec.sumP a0
  unfold Spec.sumP
  rw [← sum_flat (fun p => Spec.sg (a0 p))]
  exact Finset.sum_congr rfl fun j _ => by rw [val_main_v6_apply, sg_v5]

theorem v13_eq (a1 : Spec.A4.Idx → EReal) : val_main_v13 (F := Ideal) a1 = Spec.vG a1 := by
  funext i
  rw [val_main_v13_apply, val_main_cst_5_apply]
  simp only [Ideal.ofBits_def, Ideal.ofBits_zero_f32, zero_add]
  show _ = Spec.sumG a1
  unfold Spec.sumG
  rw [← sum_flat a1]
  exact Finset.sum_congr rfl fun j _ => val_main_v7_apply (F := Ideal) a1 j

theorem v9_eq (a0 a1 : Spec.A4.Idx → EReal) : val_main_v9 (F := Ideal) a0 a1 = Spec.vPG a0 a1 := by
  funext i
  rw [val_main_v9_apply, val_main_cst_1_apply]
  simp only [Ideal.ofBits_def, Ideal.ofBits_zero_f32, zero_add]
  show _ = Spec.sumPG a0 a1
  unfold Spec.sumPG
  rw [← sum_flat (fun p => Spec.sg (a0 p) * a1 p)]
  refine Finset.sum_congr rfl fun j _ => ?_
  rw [val_main_v8_apply, val_main_v6_apply, sg_v5, val_main_v7_apply]
  rfl

theorem v43_eq (a2 : Spec.A4.Idx → EReal) : val_main_v43 (F := Ideal) a2 = Spec.vS1 a2 := by
  funext i
  rw [val_main_v43_apply, val_main_cst_15_apply]
  simp only [Ideal.ofBits_def, Ideal.ofBits_zero_f32, zero_add]
  show _ = Spec.sq1 a2 (i 0)
  unfold Spec.sq1
  refine Finset.sum_congr rfl fun k _ => ?_
  rw [val_main_v42_apply, val_main_v40_apply, sg_v23, pix_v40]
  rfl

theorem v47_eq (a3 : Spec.A4.Idx → EReal) : val_main_v47 (F := Ideal) a3 = Spec.vS2 a3 := by
  funext i
  rw [val_main_v47_apply, val_main_cst_17_apply]
  simp only [Ideal.ofBits_def, Ideal.ofBits_zero_f32, zero_add]
  show _ = Spec.sq2 a3 (i 0)
  unfold Spec.sq2
  refine Finset.sum_congr rfl fun k _ => ?_
  rw [val_main_v46_apply, val_main_v41_apply, sg_v29]
  refine (congrArg (fun p => FloatOps.mulf (F := Ideal) (φ := .f32) (Spec.sg (a3 p)) (Spec.sg (a3 p))) (pix_v40 (idx_main_v47 i k))).trans ?_
  rfl

theorem v33_eq (a2 a3 a4 : Spec.A4.Idx → EReal) : val_main_v33 (F := Ideal) a2 a3 a4 = Spec.vMD a2 a3 a4 := by
  funext i
  unfold val_main_v33
  rw [hostReduceAdd_apply, val_main_cst_12_apply]
  unfold Ideal.hostReduceAdd
  simp only [Ideal.ofBits_def, Ideal.ofBits_zero_f32, zero_add]
  rw [sum_row]
  show _ = Spec.mds a2 a3 a4 (i 0)
  unfold Spec.mds
  refine Finset.sum_congr rfl fun q _ => ?_
  rw [val_main_v32_apply, val_main_v31_apply, val_main_v30_apply, sg_v23, sg_v29]
  rfl

theorem v51_eq (a2 a3 : Spec.A4.Idx → EReal) : val_main_v51 (F := Ideal) a2 a3 = Spec.gramM a2 a3 := by
  funext i
  rw [val_main_v51_apply]
  show _ = Spec.gram a2 a3 (i 0) (i 1)
  unfold Spec.gram
  refine Finset.sum_congr rfl fun k _ => ?_
  rw [val_main_v40_apply, sg_v23, pix_v40, val_main_v50_apply, val_main_v41_apply, sg_v29]
  refine (congrArg (fun p => Spec.sg (a2 (Spec.pix (i 0) k)) * Spec.sg (a3 p)) (pix_v40 (idx_main_v50 (ridx_main_v51 i k)))).trans ?_
  rfl

theorem v17_tail (x0 x1 : Spec.A4.Idx → EReal) :
    val_main_v17 (F := Ideal) x0 x1
      = Spec.dice (val_main_v12 (F := Ideal) x0) (val_main_v13 (F := Ideal) x1) (val_main_v9 (F := Ideal) x0 x1) := rfl

theorem v81_tail (x2 x3 x4 : Spec.A4.Idx → EReal) :
    val_main_v81 (F := Ideal) x2 x3 x4
      = Spec.contrast (val_main_v43 (F := Ideal) x2) (val_main_v47 (F := Ideal) x3) (val_main_v33 (F := Ideal) x2 x3 x4)
          (val_main_v51 (F := Ideal) x2 x3) := rfl

theorem v84_tail (x0 x1 x2 x3 x4 : Spec.A4.Idx → EReal) :
    val_main_v84 (F := Ideal) x0 x1 x2 x3 x4
      = Spec.total (val_main_v12 (F := Ideal) x0) (val_main_v13 (F := Ideal) x1) (val_main_v9 (F := Ideal) x0 x1)
          (val_main_v43 (F := Ideal) x2) (val_main_v47 (F := Ideal) x3) (val_main_v33 (F := Ideal) x2 x3 x4)
          (val_main_v51 (F := Ideal) x2 x3) := rfl

abbrev a0 (m : (ℓ : Loc nD τ sig) → Buf (Elt Ideal) ℓ) (c : Dev nD) : Spec.A4.Idx → EReal := m ((c.tc : Thread nD τ).loc main_arg0)
abbrev a1 (m : (ℓ : Loc nD τ sig) → Buf (Elt Ideal) ℓ) (c : Dev nD) : Spec.A4.Idx → EReal := m ((c.tc : Thread nD τ).loc main_arg1)
abbrev a2 (m : (ℓ : Loc nD τ sig) → Buf (Elt Ideal) ℓ) (c : Dev nD) : Spec.A4.Idx → EReal := m ((c.tc : Thread nD τ).loc main_arg2)
abbrev a3 (m : (ℓ : Loc nD τ sig) → Buf (Elt Ideal) ℓ) (c : Dev nD) : Spec.A4.Idx → EReal := m ((c.tc : Thread nD τ).loc main_arg3)
abbrev a4 (m : (ℓ : Loc nD τ sig) → Buf (Elt Ideal) ℓ) (c : Dev nD) : Spec.A4.Idx → EReal := m ((c.tc : Thread nD τ).loc main_arg4)

-- The reference's run ends at the specification's four results of its own arguments.
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84)
          = Spec.total (Spec.vP (a0 m c)) (Spec.vG (a1 m c)) (Spec.vPG (a0 m c) (a1 m c)) (Spec.vS1 (a2 m c)) (Spec.vS2 (a3 m c))
              (Spec.vMD (a2 m c) (a3 m c) (a4 m c)) (Spec.gramM (a2 m c) (a3 m c))
      ∧ r.2.mem ((c.tc : Thread nD τ).loc main_v17) = Spec.dice (Spec.vP (a0 m c)) (Spec.vG (a1 m c)) (Spec.vPG (a0 m c) (a1 m c))
      ∧ r.2.mem ((c.tc : Thread nD τ).loc main_cst_28) = Spec.zero
      ∧ r.2.mem ((c.tc : Thread nD τ).loc main_v81)
          = Spec.contrast (Spec.vS1 (a2 m c)) (Spec.vS2 (a3 m c)) (Spec.vMD (a2 m c) (a3 m c) (a4 m c)) (Spec.gramM (a2 m c) (a3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h84, h17, h28, h81, hA0, hA1, hA2, hA3, hA4⟩ := h c
    refine ⟨h84.trans ?_, h17.trans ?_, h28, h81.trans ?_, hA0, hA1, hA2, hA3, hA4⟩
    · refine (val_main_v84_eq (F := Ideal) m c).trans ((v84_tail (a0 m c) (a1 m c) (a2 m c) (a3 m c) (a4 m c)).trans ?_)
      rw [v12_eq, v13_eq, v9_eq, v43_eq, v47_eq, v33_eq, v51_eq]
    · refine (val_main_v17_eq (F := Ideal) (a0 m c) (a1 m c)).trans ((v17_tail (a0 m c) (a1 m c)).trans ?_)
      rw [v12_eq, v13_eq, v9_eq]
    · refine (val_main_v81_eq (F := Ideal) m c).trans ((v81_tail (a2 m c) (a3 m c) (a4 m c)).trans ?_)
      rw [v43_eq, v47_eq, v33_eq, v51_eq])
    (Cert.ReferenceIdeal.Value.run (F := Ideal) m ρ)

end Cert.ReferenceIdeal.RefValue

end
-- ==== Proof.lean ====
import proofs.«128507_j77738908057903_1_alg».proof.Defs
import proofs.«128507_j77738908057903_1_alg».proof.Proof.Gen.Kernel
import proofs.«128507_j77738908057903_1_alg».proof.Proof.Gen.KernelIdeal
import proofs.«128507_j77738908057903_1_alg».proof.Proof.Gen.ReferenceIdeal
import proofs.«128507_j77738908057903_1_alg».proof.Proof.Gen.Pre_finite_inputs
import proofs.«128507_j77738908057903_1_alg».proof.Proof.KernelIdeal.Run
import proofs.«128507_j77738908057903_1_alg».proof.Proof.RefValue
import Idealize.ShloMosaic.Adequacy
import Idealize.ShloMosaic.Init

set_option maxRecDepth 16384

noncomputable section

namespace Cert.Proof

open Idealize.ShloMosaic Idealize.SL.Sem

-- The idealization rewrote no operation, so the kernel as printed and its idealization have one body table, label by label.
set_option maxHeartbeats 2000000 in
theorem defs₀_eq : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))

set_option maxHeartbeats 2000000 in
theorem defs_eq : Cert.Kernel.defs (F := Bits) = Cert.KernelIdeal.defs (F := Bits) := by
  unfold Cert.Kernel.defs Cert.KernelIdeal.defs; rw [defs₀_eq]; rfl

-- So the idealization's frame, proved for every float instance, is at the printed kernel's own instance the frame of the kernel as printed.
set_option maxHeartbeats 2000000 in
theorem frame_k : Cert.frame_Kernel := by
  intro m ρ _
  rw [defs_eq]
  exact Cert.KernelIdeal.Fr.frame (F := Bits) m ρ

theorem frame_ki : Cert.frame_KernelIdeal := fun m ρ _ => Cert.KernelIdeal.Fr.frame m ρ

-- The reference's frame is its run with the four results dropped.
theorem frame_ri : Cert.frame_ReferenceIdeal := fun m ρ _ =>
  (θ_run Cert.ReferenceIdeal.defs _ _).mono (fun _ h c => (h c).2.2.2.2) (Cert.ReferenceIdeal.RefValue.ref_run m ρ)

theorem preserves : Cert.preserves_Kernel_KernelIdeal := trivial

-- Both programs end at the same function of the seven reductions of their arguments, and the arguments agree.
theorem algebraic : Cert.algebraic_KernelIdeal_ReferenceIdeal := by
  intro m ρ m' ρ' _ hagree
  refine ⟨_, _, _, _, Cert.KernelIdeal.Fr.kernel_run m ρ, ?_⟩
  refine (θ_run Cert.ReferenceIdeal.defs _ _).mono (fun _ h c => ?_) (Cert.ReferenceIdeal.RefValue.ref_run m' ρ')
  have e0 : Cert.ReferenceIdeal.RefValue.a0 m' c = Cert.KernelIdeal.Fr.a0 m c := (hagree c).1
  have e1 : Cert.ReferenceIdeal.RefValue.a1 m' c = Cert.KernelIdeal.Fr.a1 m c := (hagree c).2.1
  have e2 : Cert.ReferenceIdeal.RefValue.a2 m' c = Cert.KernelIdeal.Fr.a2 m c := (hagree c).2.2.1
  have e3 : Cert.ReferenceIdeal.RefValue.a3 m' c = Cert.KernelIdeal.Fr.a3 m c := (hagree c).2.2.2.1
  have e4 : Cert.ReferenceIdeal.RefValue.a4 m' c = Cert.KernelIdeal.Fr.a4 m c := (hagree c).2.2.2.2
  obtain ⟨h84, h17, h28, h81, hA⟩ := h c
  refine ⟨h84.trans ?_, h17.trans ?_, h28, h81.trans ?_, hA⟩
  · rw [e0, e1, e2, e3, e4]
  · rw [e0, e1]
  · rw [e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
